-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S_ : Shape := ⟨0, ![]⟩
abbrev S1x800000 : Shape := ⟨2, ![1, 800000]⟩
abbrev S800000 : Shape := ⟨1, ![800000]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part3 {F : FTy → Type} [FloatOps F] (main_arg1 : IVec S2x800000 32) (main_v48 : IVec S_ 1) (main_v50 : IVec S800000 32) (main_c_18 : IVec S_ 32) : IVec S_ 1 :=
  let main_v51 : IVec S800000 32 := broadcastInDim S800000 ![] bcast_S_S800000 main_c_18
  let main_v52 : IVec S800000 1 := cmpi .sge main_v50 main_v51
  let main_v53 : IVec S1x800000 32 := (extractStridedSlice S1x800000 ![0, 0] · slices_S2x800000_S1x800000_0_0) main_arg1
  let main_v54 : IVec S800000 32 := shapeCast S800000 main_v53 shapeCasts_S1x800000_S800000
  let main_c_19 : IVec S_ 32 := constantI S_ 32 50000#32
  let main_v55 : IVec S800000 32 := broadcastInDim S800000 ![] bcast_S_S800000 main_c_19
  let main_v56 : IVec S800000 1 := cmpi .slt main_v54 main_v55
  let main_v57 : IVec S800000 1 := andi main_v52 main_v56
  let main_c_20 : IVec S_ 1 := constantI S_ 1 1#1
  let main_v58 : IVec S_ 1 := (fun x v => Host.reduce IntOp.andi x v reducesTo_S800000_S_d0 h_S_) main_v57 main_c_20
  let main_v59 : IVec S_ 1 := andi main_v48 main_v58
  main_v59

def fn_part2 {F : FTy → Type} [FloatOps F] (main_arg1 : IVec S2x800000 32) (main_arg8 : FVec F S64 .f32) (main_arg9 : FVec F S64 .f32) (main_arg10 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : IVec S1x800000 32 := (extractStridedSlice S1x800000 ![0, 0] · slices_S2x800000_S1x800000_0_0) main_arg1
  let main_v50 : IVec S800000 32 := shapeCast S800000 main_v49 shapeCasts_S1x800000_S800000
  let main_c_18 : IVec S_ 32 := constantI S_ 32 4294917296#32
  fn_part3 (F := F) main_arg1 main_v48 main_v50 main_c_18

def fn_part1 {F : FTy → Type} [FloatOps F] (main_arg1 : IVec S2x800000 32) (main_arg5 : FVec F S64 .f32) (main_arg6 : FVec F S64x64 .f32) (main_arg7 : FVec F S64 .f32) (main_arg8 : FVec F S64 .f32) (main_arg9 : FVec F S64 .f32) (main_arg10 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg1 main_arg8 main_arg9 main_arg10 main_v33

def fn {F : FTy → Type} [FloatOps F] (main_arg0 : FVec F S50000x64 .f32) (main_arg1 : IVec S2x800000 32) (main_arg2 : FVec F S64x64 .f32) (main_arg3 : FVec F S64 .f32) (main_arg4 : FVec F S64x64 .f32) (main_arg5 : FVec F S64 .f32) (main_arg6 : FVec F S64x64 .f32) (main_arg7 : FVec F S64 .f32) (main_arg8 : FVec F S64 .f32) (main_arg9 : FVec F S64 .f32) (main_arg10 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg1 main_arg5 main_arg6 main_arg7 main_arg8 main_arg9 main_arg10 main_v13 main_v16
-- ==== Kernel.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S1x800000 : Shape := ⟨2, ![1, 800000]⟩
abbrev S800000 : Shape := ⟨1, ![800000]⟩
abbrev S5000x64 : Shape := ⟨2, ![5000, 64]⟩
abbrev S1x64 : Shape := ⟨2, ![1, 64]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x64 : Shape := ⟨2, ![800000, 64]⟩
abbrev S8000x64 : Shape := ⟨2, ![8000, 64]⟩

abbrev nBuf : Space → Nat
  | .hbm => 107
  | .vmem => 38
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S50000x64, .f32⟩
  | .hbm, ⟨16, _⟩ => ⟨S50000x64, .f32⟩
  | .hbm, ⟨17, _⟩ => ⟨S50000x64, .f32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S1, .i32⟩
  | .hbm, ⟨27, _⟩ => ⟨S_, .i32⟩
  | .hbm, ⟨28, _⟩ => ⟨S800000x1, .i32⟩
  | .hbm, ⟨29, _⟩ => ⟨S800000x1, .i1⟩
  | .hbm, ⟨30, _⟩ => ⟨S1x1, .i32⟩
  | .hbm, ⟨31, _⟩ => ⟨S800000x1, .i32⟩
  | .hbm, ⟨32, _⟩ => ⟨S800000x1, .i1⟩
  | .hbm, ⟨33, _⟩ => ⟨S800000x1, .i1⟩
  | .hbm, ⟨34, _⟩ => ⟨S_, .i1⟩
  | .hbm, ⟨35, _⟩ => ⟨S800000, .i1⟩
  | .hbm, ⟨36, _⟩ => ⟨S800000x64, .f32⟩
  | .hbm, ⟨37, _⟩ => ⟨S800000x64, .i1⟩
  | .hbm, ⟨38, _⟩ => ⟨S_, .f32⟩
  | .hbm, ⟨39, _⟩ => ⟨S800000x64, .f32⟩
  | .hbm, ⟨40, _⟩ => ⟨S800000x64, .f32⟩
  | .hbm, ⟨41, _⟩ => ⟨S_, .i32⟩
  | .hbm, ⟨42, _⟩ => ⟨S800000, .i32⟩
  | .hbm, ⟨43, _⟩ => ⟨S800000, .i1⟩
  | .hbm, ⟨44, _⟩ => ⟨S_, .i32⟩
  | .hbm, ⟨45, _⟩ => ⟨S800000, .i32⟩
  | .hbm, ⟨46, _⟩ => ⟨S800000, .i32⟩
  | .hbm, ⟨47, _⟩ => ⟨S800000, .i32⟩
  | .hbm, ⟨48, _⟩ => ⟨S800000x1, .i32⟩
  | .hbm, ⟨49, _⟩ => ⟨S1, .i32⟩
  | .hbm, ⟨50, _⟩ => ⟨S_, .i32⟩
  | .hbm, ⟨51, _⟩ => ⟨S800000x1, .i32⟩
  | .hbm, ⟨52, _⟩ => ⟨S800000x1, .i1⟩
  | .hbm, ⟨53, _⟩ => ⟨S1x1, .i32⟩
  | .hbm, ⟨54, _⟩ => ⟨S800000x1, .i32⟩
  | .hbm, ⟨55, _⟩ => ⟨S800000x1, .i1⟩
  | .hbm, ⟨56, _⟩ => ⟨S800000x1, .i1⟩
  | .hbm, ⟨57, _⟩ => ⟨S_, .i1⟩
  | .hbm, ⟨58, _⟩ => ⟨S800000, .i1⟩
  | .hbm, ⟨59, _⟩ => ⟨S800000x64, .f32⟩
  | .hbm, ⟨60, _⟩ => ⟨S800000x64, .i1⟩
  | .hbm, ⟨61, _⟩ => ⟨S_, .f32⟩
  | .hbm, ⟨62, _⟩ => ⟨S800000x64, .f32⟩
  | .hbm, ⟨63, _⟩ => ⟨S800000x64, .f32⟩
  | .hbm, ⟨64, _⟩ => ⟨S_, .i32⟩
  | .hbm, ⟨65, _⟩ => ⟨S800000, .i32⟩
  | .hbm, ⟨66, _⟩ => ⟨S800000, .i1⟩
  | .hbm, ⟨67, _⟩ => ⟨S_, .i32⟩
  | .hbm, ⟨68, _⟩ => ⟨S800000, .i32⟩
  | .hbm, ⟨69, _⟩ => ⟨S800000, .i32⟩
  | .hbm, ⟨70, _⟩ => ⟨S800000, .i32⟩
  | .hbm, ⟨71, _⟩ => ⟨S800000x1, .i32⟩
  | .hbm, ⟨72, _⟩ => ⟨S1, .i32⟩
  | .hbm, ⟨73, _⟩ => ⟨S_, .i32⟩
  | .hbm, ⟨74, _⟩ => ⟨S800000x1, .i32⟩
  | .hbm, ⟨75, _⟩ => ⟨S800000x1, .i1⟩
  | .hbm, ⟨76, _⟩ => ⟨S1x1, .i32⟩
  | .hbm, ⟨77, _⟩ => ⟨S800000x1, .i32⟩
  | .hbm, ⟨78, _⟩ => ⟨S800000x1, .i1⟩
  | .hbm, ⟨79, _⟩ => ⟨S800000x1, .i1⟩
  | .hbm, ⟨80, _⟩ => ⟨S_, .i1⟩
  | .hbm, ⟨81, _⟩ => ⟨S800000, .i1⟩
  | .hbm, ⟨82, _⟩ => ⟨S800000x64, .f32⟩
  | .hbm, ⟨83, _⟩ => ⟨S800000x64, .i1⟩
  | .hbm, ⟨84, _⟩ => ⟨S_, .f32⟩
  | .hbm, ⟨85, _⟩ => ⟨S800000x64, .f32⟩
  | .hbm, ⟨86, _⟩ => ⟨S800000x64, .f32⟩
  | .hbm, ⟨87, _⟩ => ⟨S800000x64, .f32⟩
  | .hbm, ⟨88, _⟩ => ⟨S_, .f32⟩
  | .hbm, ⟨89, _⟩ => ⟨S50000x64, .f32⟩
  | .hbm, ⟨90, _⟩ => ⟨S800000x1, .i32⟩
  | .hbm, ⟨91, _⟩ => ⟨S50000x64, .f32⟩
  | .hbm, ⟨92, _⟩ => ⟨S1x64, .f32⟩
  | .hbm, ⟨93, _⟩ => ⟨S1x64, .f32⟩
  | .hbm, ⟨94, _⟩ => ⟨S_, .f32⟩
  | .hbm, ⟨95, _⟩ => ⟨S1x64, .f32⟩
  | .hbm, ⟨96, _⟩ => ⟨S1x64, .f32⟩
  | .hbm, ⟨97, _⟩ => ⟨S_, .f32⟩
  | .hbm, ⟨98, _⟩ => ⟨S1x64, .f32⟩
  | .hbm, ⟨99, _⟩ => ⟨S1x64, .f32⟩
  | .hbm, ⟨100, _⟩ => ⟨S1x64, .f32⟩
  | .hbm, ⟨101, _⟩ => ⟨S1x64, .f32⟩
  | .hbm, ⟨102, _⟩ => ⟨S_, .f32⟩
  | .hbm, ⟨103, _⟩ => ⟨S1x64, .f32⟩
  | .hbm, ⟨104, _⟩ => ⟨S1x64, .f32⟩
  | .hbm, ⟨105, _⟩ => ⟨S1x64, .f32⟩
  | .hbm, ⟨106, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S64, .f32⟩
  | .local _ .vmem, ⟨4, _⟩ => ⟨S64x64, .f32⟩
  | .local _ .vmem, ⟨5, _⟩ => ⟨S64, .f32⟩
  | .local _ .vmem, ⟨6, _⟩ => ⟨S64x64, .f32⟩
  | .local _ .vmem, ⟨7, _⟩ => ⟨S64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S8000x64, .f32⟩
  | .local _ .vmem, ⟨15, _⟩ => ⟨S8000x64, .f32⟩
  | .local _ .vmem, ⟨16, _⟩ => ⟨S8000x64, .f32⟩
  | .local _ .vmem, ⟨17, _⟩ => ⟨S8000x64, .f32⟩
  | .local _ .vmem, ⟨18, _⟩ => ⟨S8000x64, .f32⟩
  | .local _ .vmem, ⟨19, _⟩ => ⟨S8000x64, .f32⟩
  | .local _ .vmem, ⟨20, _⟩ => ⟨S8000x64, .f32⟩
  | .local _ .vmem, ⟨21, _⟩ => ⟨S8000x64, .f32⟩
  | .local _ .vmem, ⟨22, _⟩ => ⟨S5000x64, .f32⟩
  | .local _ .vmem, ⟨23, _⟩ => ⟨S5000x64, .f32⟩
  | .local _ .vmem, ⟨24, _⟩ => ⟨S64, .f32⟩
  | .local _ .vmem, ⟨25, _⟩ => ⟨S1x64, .f32⟩
  | .local _ .vmem, ⟨26, _⟩ => ⟨S1x64, .f32⟩
  | .local _ .vmem, ⟨27, _⟩ => ⟨S1x64, .f32⟩
  | .local _ .vmem, ⟨28, _⟩ => ⟨S1x64, .f32⟩
  | .local _ .vmem, ⟨29, _⟩ => ⟨S5000x64, .f32⟩
  | .local _ .vmem, ⟨30, _⟩ => ⟨S5000x64, .f32⟩
  | .local _ .vmem, ⟨31, _⟩ => ⟨S64, .f32⟩
  | .local _ .vmem, ⟨32, _⟩ => ⟨S1x64, .f32⟩
  | .local _ .vmem, ⟨33, _⟩ => ⟨S1x64, .f32⟩
  | .local _ .vmem, ⟨34, _⟩ => ⟨S64, .f32⟩
  | .local _ .vmem, ⟨35, _⟩ => ⟨S64, .f32⟩
  | .local _ .vmem, ⟨36, _⟩ => ⟨S5000x64, .f32⟩
  | .local _ .vmem, ⟨37, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4_0 : Ref sig .tc := ⟨.hbm, 15, rfl⟩
abbrev main_v4_1 : Ref sig .tc := ⟨.hbm, 16, rfl⟩
abbrev main_v4_2 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_c_1 : Ref sig .tc := ⟨.hbm, 26, rfl⟩
abbrev main_call0_c_2 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_3 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_call0_cst : Ref sig .tc := ⟨.hbm, 38, rfl⟩
abbrev main_call0_v15 : Ref sig .tc := ⟨.hbm, 39, rfl⟩
abbrev main_v5 : Ref sig .tc := ⟨.hbm, 40, rfl⟩
abbrev main_call1_c : Ref sig .tc := ⟨.hbm, 41, rfl⟩
abbrev main_call1_v0 : Ref sig .tc := ⟨.hbm, 42, rfl⟩
abbrev main_call1_v1 : Ref sig .tc := ⟨.hbm, 43, rfl⟩
abbrev main_call1_c_0 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_v5 : Ref sig .tc := ⟨.hbm, 48, rfl⟩
abbrev main_call1_c_1 : Ref sig .tc := ⟨.hbm, 49, rfl⟩
abbrev main_call1_c_2 : Ref sig .tc := ⟨.hbm, 50, rfl⟩
abbrev main_call1_v6 : Ref sig .tc := ⟨.hbm, 51, rfl⟩
abbrev main_call1_v7 : Ref sig .tc := ⟨.hbm, 52, rfl⟩
abbrev main_call1_v8 : Ref sig .tc := ⟨.hbm, 53, rfl⟩
abbrev main_call1_v9 : Ref sig .tc := ⟨.hbm, 54, rfl⟩
abbrev main_call1_v10 : Ref sig .tc := ⟨.hbm, 55, rfl⟩
abbrev main_call1_v11 : Ref sig .tc := ⟨.hbm, 56, rfl⟩
abbrev main_call1_c_3 : Ref sig .tc := ⟨.hbm, 57, rfl⟩
abbrev main_call1_v12 : Ref sig .tc := ⟨.hbm, 58, rfl⟩
abbrev main_call1_v13 : Ref sig .tc := ⟨.hbm, 59, rfl⟩
abbrev main_call1_v14 : Ref sig .tc := ⟨.hbm, 60, rfl⟩
abbrev main_call1_cst : Ref sig .tc := ⟨.hbm, 61, rfl⟩
abbrev main_call1_v15 : Ref sig .tc := ⟨.hbm, 62, rfl⟩
abbrev main_v6 : Ref sig .tc := ⟨.hbm, 63, rfl⟩
abbrev main_call2_c : Ref sig .tc := ⟨.hbm, 64, rfl⟩
abbrev main_call2_v0 : Ref sig .tc := ⟨.hbm, 65, rfl⟩
abbrev main_call2_v1 : Ref sig .tc := ⟨.hbm, 66, rfl⟩
abbrev main_call2_c_0 : Ref sig .tc := ⟨.hbm, 67, rfl⟩
abbrev main_call2_v2 : Ref sig .tc := ⟨.hbm, 68, rfl⟩
abbrev main_call2_v3 : Ref sig .tc := ⟨.hbm, 69, rfl⟩
abbrev main_call2_v4 : Ref sig .tc := ⟨.hbm, 70, rfl⟩
abbrev main_call2_v5 : Ref sig .tc := ⟨.hbm, 71, rfl⟩
abbrev main_call2_c_1 : Ref sig .tc := ⟨.hbm, 72, rfl⟩
abbrev main_call2_c_2 : Ref sig .tc := ⟨.hbm, 73, rfl⟩
abbrev main_call2_v6 : Ref sig .tc := ⟨.hbm, 74, rfl⟩
abbrev main_call2_v7 : Ref sig .tc := ⟨.hbm, 75, rfl⟩
abbrev main_call2_v8 : Ref sig .tc := ⟨.hbm, 76, rfl⟩
abbrev main_call2_v9 : Ref sig .tc := ⟨.hbm, 77, rfl⟩
abbrev main_call2_v10 : Ref sig .tc := ⟨.hbm, 78, rfl⟩
abbrev main_call2_v11 : Ref sig .tc := ⟨.hbm, 79, rfl⟩
abbrev main_call2_c_3 : Ref sig .tc := ⟨.hbm, 80, rfl⟩
abbrev main_call2_v12 : Ref sig .tc := ⟨.hbm, 81, rfl⟩
abbrev main_call2_v13 : Ref sig .tc := ⟨.hbm, 82, rfl⟩
abbrev main_call2_v14 : Ref sig .tc := ⟨.hbm, 83, rfl⟩
abbrev main_call2_cst : Ref sig .tc := ⟨.hbm, 84, rfl⟩
abbrev main_call2_v15 : Ref sig .tc := ⟨.hbm, 85, rfl⟩
abbrev main_v7 : Ref sig .tc := ⟨.hbm, 86, rfl⟩
abbrev main_v8 : Ref sig .tc := ⟨.hbm, 87, rfl⟩
abbrev main_cst : Ref sig .tc := ⟨.hbm, 88, rfl⟩
abbrev main_v9 : Ref sig .tc := ⟨.hbm, 89, rfl⟩
abbrev main_v10 : Ref sig .tc := ⟨.hbm, 90, rfl⟩
abbrev main_v11 : Ref sig .tc := ⟨.hbm, 91, rfl⟩
abbrev main_v12_0 : Ref sig .tc := ⟨.hbm, 92, rfl⟩
abbrev main_v12_1 : Ref sig .tc := ⟨.hbm, 93, rfl⟩
abbrev main_cst_0 : Ref sig .tc := ⟨.hbm, 94, rfl⟩
abbrev main_v13 : Ref sig .tc := ⟨.hbm, 95, rfl⟩
abbrev main_v14 : Ref sig .tc := ⟨.hbm, 96, rfl⟩
abbrev main_cst_1 : Ref sig .tc := ⟨.hbm, 97, rfl⟩
abbrev main_v15 : Ref sig .tc := ⟨.hbm, 98, rfl⟩
abbrev main_v16 : Ref sig .tc := ⟨.hbm, 99, rfl⟩
abbrev main_v17 : Ref sig .tc := ⟨.hbm, 100, rfl⟩
abbrev main_v18 : Ref sig .tc := ⟨.hbm, 101, rfl⟩
abbrev main_cst_2 : Ref sig .tc := ⟨.hbm, 102, rfl⟩
abbrev main_v19 : Ref sig .tc := ⟨.hbm, 103, rfl⟩
abbrev main_v20 : Ref sig .tc := ⟨.hbm, 104, rfl⟩
abbrev main_v21 : Ref sig .tc := ⟨.hbm, 105, rfl⟩
abbrev main_v22 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg3_0 : Ref sig .tc := ⟨.vmem, 26, rfl⟩
abbrev cc2_scratch0 : Ref sig .tc := ⟨.vmem, 27, rfl⟩
abbrev cc2_scratch1 : Ref sig .tc := ⟨.vmem, 28, rfl⟩
abbrev cc3_stg0_0 : Ref sig .tc := ⟨.vmem, 29, rfl⟩
abbrev cc3_stg0_1 : Ref sig .tc := ⟨.vmem, 30, rfl⟩
abbrev cc3_stg1_0 : Ref sig .tc := ⟨.vmem, 31, rfl⟩
abbrev cc3_stg2_0 : Ref sig .tc := ⟨.vmem, 32, rfl⟩
abbrev cc3_stg3_0 : Ref sig .tc := ⟨.vmem, 33, rfl⟩
abbrev cc3_stg4_0 : Ref sig .tc := ⟨.vmem, 34, rfl⟩
abbrev cc3_stg5_0 : Ref sig .tc := ⟨.vmem, 35, rfl⟩
abbrev cc3_stg6_0 : Ref sig .tc := ⟨.vmem, 36, rfl⟩
abbrev cc3_stg6_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem3_0 : DmaSem sig := 26
abbrev cc3_sem0_0 : DmaSem sig := 27
abbrev cc3_sem0_1 : DmaSem sig := 28
abbrev cc3_sem1_0 : DmaSem sig := 29
abbrev cc3_sem2_0 : DmaSem sig := 30
abbrev cc3_sem3_0 : DmaSem sig := 31
abbrev cc3_sem4_0 : DmaSem sig := 32
abbrev cc3_sem5_0 : DmaSem sig := 33
abbrev cc3_sem6_0 : DmaSem sig := 34
abbrev cc3_sem6_1 : DmaSem sig := 35

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S5000x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S5000x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S8000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def k2_cond2 (i : grid2.Coords) : BitVec 1 :=
  let arg0 : BitVec 32 := BitVec.ofNat 32 (i 0).val
  let c9_i32 : BitVec 32 := 9#32
  let v24 : BitVec 1 := Scalar.cmpi .eq arg0 c9_i32
  let v25 : BitVec 32 := Scalar.extui v24
  let c0_i32_12 : BitVec 32 := 0#32
  let v26 : BitVec 1 := Scalar.cmpi .ne v25 c0_i32_12
  v26

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x64_0 : S800000.BroadcastsInDim S800000x64 (![0] : Fin 1 → Fin S800000x64.rank)
  bcast_S_S800000x64 : S_.BroadcastsInDim S800000x64 (![] : Fin 0 → Fin S800000x64.rank)
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  bcast_S_S50000x64 : S_.BroadcastsInDim S50000x64 (![] : Fin 0 → Fin S50000x64.rank)
  inb_S1x64_S1x64_0_0 : ∀ a, (![0, 0] : Fin 2 → Nat) a + S1x64.size a ≤ S1x64.size a
  h_S1x64 : 0 < S1x64.numel
  shapeCasts_S1x64_S1x64 : S1x64.ShapeCasts S1x64
  shapeCasts_S5000x64_S5000x64 : S5000x64.ShapeCasts S5000x64
  reduces_S5000x64_S64 : S5000x64.Reduces [0] S64
  bcast_S_S1x64 : S_.BroadcastsInDim S1x64 (![] : Fin 0 → Fin S1x64.rank)
  dot_S5000x64_S64x64_S5000x64_1_0_0_1_n_n_wf : DotDims.WF S5000x64 S64x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x64.size a ≤ S50000x64.size a
  hwx0_7 : ∀ i : grid0.Coords, EltTy.bits .f32 = 32 ∨ (Rect.block (s := S50000x64) S5000x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S5000x64.size a ≤ S50000x64.size a
  hwx0_8 : ∀ i : grid0.Coords, EltTy.bits .f32 = 32 ∨ (Rect.block (s := S50000x64) S5000x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x64.size a ≤ S50000x64.size a
  hwx0_9 : ∀ i : grid0.Coords, EltTy.bits .f32 = 32 ∨ (Rect.block (s := S50000x64) S5000x64.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x64.size a ≤ S800000x64.size a
  hwx1_0 : ∀ i : grid1.Coords, EltTy.bits .f32 = 32 ∨ (Rect.block (s := S800000x64) S8000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x64.size a ≤ S800000x64.size a
  hwx1_1 : ∀ i : grid1.Coords, EltTy.bits .f32 = 32 ∨ (Rect.block (s := S800000x64) S8000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8000x64.size a ≤ S800000x64.size a
  hwx1_2 : ∀ i : grid1.Coords, EltTy.bits .f32 = 32 ∨ (Rect.block (s := S800000x64) S8000x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8000x64.size a ≤ S800000x64.size a
  hwx1_3 : ∀ i : grid1.Coords, EltTy.bits .f32 = 32 ∨ (Rect.block (s := S800000x64) S8000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64.size a ≤ S64.size a
  hwx2_1 : ∀ i : grid2.Coords, EltTy.bits .f32 = 32 ∨ (Rect.block (s := S64) S64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64.size a ≤ S64.size a
  hwx3_1 : ∀ i : grid3.Coords, EltTy.bits .f32 = 32 ∨ (Rect.block (s := S64) S64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64.size a ≤ S64.size a
  hwx3_4 : ∀ i : grid3.Coords, EltTy.bits .f32 = 32 ∨ (Rect.block (s := S64) S64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64.size a ≤ S64.size a
  hwx3_5 : ∀ i : grid3.Coords, EltTy.bits .f32 = 32 ∨ (Rect.block (s := S64) S64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x64.size a ≤ S50000x64.size a
  hwx3_6 : ∀ i : grid3.Coords, EltTy.bits .f32 = 32 ∨ (Rect.block (s := S50000x64) S5000x64.size (cc3_transform_6 i) (hinb3_6 i)).WholeWords (EltTy.packing .f32)

variable [Facts₀]

def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4_0) S5000x64.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v4_1) S5000x64.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v4_2) S5000x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v5) S8000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S8000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S8000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v8) S8000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v11) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v12_0) S1x64.size cc2_transform_2 reads2_2 true true 1 stage2_2 sem2_2
    hrank2 hreads2_2 hinb2_2 nbuf2_2 (Memref.isWhole_whole _) hwx2_2 hstage2_2

abbrev win2_3 : Pipeline.Window sig grid2 :=
  Pipeline.Window.ofSpec (Memref.whole main_v12_1) S1x64.size cc2_transform_3 reads2_3 true true 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun i => !(k2_cond2 i == 1#1) | 3 => fun i => !(k2_cond2 i == 1#1) | ⟨_ + 4, h⟩ => absurd h (Nat.not_lt.2 (Nat.le_add_left _ _))

abbrev win3_0 : Pipeline.Window sig grid3 :=
  Pipeline.Window.ofSpec (Memref.whole main_v11) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg8) S64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v14) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v21) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg9) S64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg10) S64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v22) S5000x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S1x64 : Shape := ⟨2, ![1, 64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩

abbrev nBuf : Space → Nat
  | .hbm => 118
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S50000x64, .f32⟩
  | .hbm, ⟨12, _⟩ => ⟨S1x64, .f32⟩
  | .hbm, ⟨13, _⟩ => ⟨S50000x64, .f32⟩
  | .hbm, ⟨14, _⟩ => ⟨S50000x64, .f32⟩
  | .hbm, ⟨15, _⟩ => ⟨S50000x64, .f32⟩
  | .hbm, ⟨16, _⟩ => ⟨S1x64, .f32⟩
  | .hbm, ⟨17, _⟩ => ⟨S50000x64, .f32⟩
  | .hbm, ⟨18, _⟩ => ⟨S50000x64, .f32⟩
  | .hbm, ⟨19, _⟩ => ⟨S50000x64, .f32⟩
  | .hbm, ⟨20, _⟩ => ⟨S1x64, .f32⟩
  | .hbm, ⟨21, _⟩ => ⟨S50000x64, .f32⟩
  | .hbm, ⟨22, _⟩ => ⟨S50000x64, .f32⟩
  | .hbm, ⟨23, _⟩ => ⟨S1x800000, .i32⟩
  | .hbm, ⟨24, _⟩ => ⟨S800000, .i32⟩
  | .hbm, ⟨25, _⟩ => ⟨S1x800000, .i32⟩
  | .hbm, ⟨26, _⟩ => ⟨S800000, .i32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000x64, .f32⟩
  | .hbm, ⟨36, _⟩ => ⟨S_, .i32⟩
  | .hbm, ⟨37, _⟩ => ⟨S800000, .i32⟩
  | .hbm, ⟨38, _⟩ => ⟨S800000, .i1⟩
  | .hbm, ⟨39, _⟩ => ⟨S_, .i32⟩
  | .hbm, ⟨40, _⟩ => ⟨S800000, .i32⟩
  | .hbm, ⟨41, _⟩ => ⟨S800000, .i32⟩
  | .hbm, ⟨42, _⟩ => ⟨S800000, .i32⟩
  | .hbm, ⟨43, _⟩ => ⟨S800000x1, .i32⟩
  | .hbm, ⟨44, _⟩ => ⟨S800000x64, .f32⟩
  | .hbm, ⟨45, _⟩ => ⟨S800000x64, .f32⟩
  | .hbm, ⟨46, _⟩ => ⟨S800000x64, .f32⟩
  | .hbm, ⟨47, _⟩ => ⟨S800000x64, .f32⟩
  | .hbm, ⟨48, _⟩ => ⟨S_, .f32⟩
  | .hbm, ⟨49, _⟩ => ⟨S800000x64, .f32⟩
  | .hbm, ⟨50, _⟩ => ⟨S800000x64, .f32⟩
  | .hbm, ⟨51, _⟩ => ⟨S_, .f32⟩
  | .hbm, ⟨52, _⟩ => ⟨S800000x64, .f32⟩
  | .hbm, ⟨53, _⟩ => ⟨S800000x64, .f32⟩
  | .hbm, ⟨54, _⟩ => ⟨S_, .i32⟩
  | .hbm, ⟨55, _⟩ => ⟨S800000, .i32⟩
  | .hbm, ⟨56, _⟩ => ⟨S800000, .i1⟩
  | .hbm, ⟨57, _⟩ => ⟨S_, .i32⟩
  | .hbm, ⟨58, _⟩ => ⟨S800000, .i32⟩
  | .hbm, ⟨59, _⟩ => ⟨S800000, .i32⟩
  | .hbm, ⟨60, _⟩ => ⟨S800000, .i32⟩
  | .hbm, ⟨61, _⟩ => ⟨S800000x1, .i32⟩
  | .hbm, ⟨62, _⟩ => ⟨S800000x64, .f32⟩
  | .hbm, ⟨63, _⟩ => ⟨S800000x64, .f32⟩
  | .hbm, ⟨64, _⟩ => ⟨S_, .f32⟩
  | .hbm, ⟨65, _⟩ => ⟨S50000x64, .f32⟩
  | .hbm, ⟨66, _⟩ => ⟨S800000x1, .i32⟩
  | .hbm, ⟨67, _⟩ => ⟨S50000x64, .f32⟩
  | .hbm, ⟨68, _⟩ => ⟨S1x64, .f32⟩
  | .hbm, ⟨69, _⟩ => ⟨S50000x64, .f32⟩
  | .hbm, ⟨70, _⟩ => ⟨S50000x64, .f32⟩
  | .hbm, ⟨71, _⟩ => ⟨S_, .f32⟩
  | .hbm, ⟨72, _⟩ => ⟨S64, .f32⟩
  | .hbm, ⟨73, _⟩ => ⟨S_, .f32⟩
  | .hbm, ⟨74, _⟩ => ⟨S64, .f32⟩
  | .hbm, ⟨75, _⟩ => ⟨S64, .f32⟩
  | .hbm, ⟨76, _⟩ => ⟨S_, .i32⟩
  | .hbm, ⟨77, _⟩ => ⟨S_, .f32⟩
  | .hbm, ⟨78, _⟩ => ⟨S64, .f32⟩
  | .hbm, ⟨79, _⟩ => ⟨S1x64, .f32⟩
  | .hbm, ⟨80, _⟩ => ⟨S_, .f32⟩
  | .hbm, ⟨81, _⟩ => ⟨S1x64, .f32⟩
  | .hbm, ⟨82, _⟩ => ⟨S1x64, .f32⟩
  | .hbm, ⟨83, _⟩ => ⟨S50000x64, .f32⟩
  | .hbm, ⟨84, _⟩ => ⟨S50000x64, .f32⟩
  | .hbm, ⟨85, _⟩ => ⟨S50000x64, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S64, .f32⟩
  | .hbm, ⟨91, _⟩ => ⟨S64, .f32⟩
  | .hbm, ⟨92, _⟩ => ⟨S64, .f32⟩
  | .hbm, ⟨93, _⟩ => ⟨S_, .f32⟩
  | .hbm, ⟨94, _⟩ => ⟨S_, .i1⟩
  | .hbm, ⟨95, _⟩ => ⟨S_, .f32⟩
  | .hbm, ⟨96, _⟩ => ⟨S_, .f32⟩
  | .hbm, ⟨97, _⟩ => ⟨S64, .f32⟩
  | .hbm, ⟨98, _⟩ => ⟨S64, .f32⟩
  | .hbm, ⟨99, _⟩ => ⟨S1x64, .f32⟩
  | .hbm, ⟨100, _⟩ => ⟨S50000x64, .f32⟩
  | .hbm, ⟨101, _⟩ => ⟨S50000x64, .f32⟩
  | .hbm, ⟨102, _⟩ => ⟨S_, .f32⟩
  | .hbm, ⟨103, _⟩ => ⟨S64, .f32⟩
  | .hbm, ⟨104, _⟩ => ⟨S64, .f32⟩
  | .hbm, ⟨105, _⟩ => ⟨S64, .f32⟩
  | .hbm, ⟨106, _⟩ => ⟨S1x64, .f32⟩
  | .hbm, ⟨107, _⟩ => ⟨S50000x64, .f32⟩
  | .hbm, ⟨108, _⟩ => ⟨S50000x64, .f32⟩
  | .hbm, ⟨109, _⟩ => ⟨S1x64, .f32⟩
  | .hbm, ⟨110, _⟩ => ⟨S50000x64, .f32⟩
  | .hbm, ⟨111, _⟩ => ⟨S50000x64, .f32⟩
  | .hbm, ⟨112, _⟩ => ⟨S1x64, .f32⟩
  | .hbm, ⟨113, _⟩ => ⟨S50000x64, .f32⟩
  | .hbm, ⟨114, _⟩ => ⟨S50000x64, .f32⟩
  | .hbm, ⟨115, _⟩ => ⟨S_, .f32⟩
  | .hbm, ⟨116, _⟩ => ⟨S50000x64, .f32⟩
  | .hbm, ⟨117, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_c_0 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_1 : Ref sig .tc := ⟨.hbm, 36, rfl⟩
abbrev main_v23 : Ref sig .tc := ⟨.hbm, 37, rfl⟩
abbrev main_v24 : Ref sig .tc := ⟨.hbm, 38, rfl⟩
abbrev main_c_2 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst : Ref sig .tc := ⟨.hbm, 48, rfl⟩
abbrev main_v33 : Ref sig .tc := ⟨.hbm, 49, rfl⟩
abbrev main_v34 : Ref sig .tc := ⟨.hbm, 50, rfl⟩
abbrev main_cst_3 : Ref sig .tc := ⟨.hbm, 51, rfl⟩
abbrev main_v35 : Ref sig .tc := ⟨.hbm, 52, rfl⟩
abbrev main_v36 : Ref sig .tc := ⟨.hbm, 53, rfl⟩
abbrev main_c_4 : Ref sig .tc := ⟨.hbm, 54, rfl⟩
abbrev main_v37 : Ref sig .tc := ⟨.hbm, 55, rfl⟩
abbrev main_v38 : Ref sig .tc := ⟨.hbm, 56, rfl⟩
abbrev main_c_5 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_6 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_7 : Ref sig .tc := ⟨.hbm, 71, rfl⟩
abbrev main_v51 : Ref sig .tc := ⟨.hbm, 72, rfl⟩
abbrev main_cst_8 : Ref sig .tc := ⟨.hbm, 73, rfl⟩
abbrev main_v52 : Ref sig .tc := ⟨.hbm, 74, rfl⟩
abbrev main_v53 : Ref sig .tc := ⟨.hbm, 75, rfl⟩
abbrev main_c_9 : Ref sig .tc := ⟨.hbm, 76, rfl⟩
abbrev main_call0_cst : Ref sig .tc := ⟨.hbm, 77, rfl⟩
abbrev main_call0_v0 : Ref sig .tc := ⟨.hbm, 78, rfl⟩
abbrev main_call0_v1 : Ref sig .tc := ⟨.hbm, 79, rfl⟩
abbrev main_call0_cst_0 : Ref sig .tc := ⟨.hbm, 80, rfl⟩
abbrev main_call0_v2 : Ref sig .tc := ⟨.hbm, 81, rfl⟩
abbrev main_call0_v3 : Ref sig .tc := ⟨.hbm, 82, rfl⟩
abbrev main_call0_v4 : Ref sig .tc := ⟨.hbm, 83, rfl⟩
abbrev main_call0_v5 : Ref sig .tc := ⟨.hbm, 84, rfl⟩
abbrev main_call0_v6 : Ref sig .tc := ⟨.hbm, 85, rfl⟩
abbrev main_call0_v7 : Ref sig .tc := ⟨.hbm, 86, rfl⟩
abbrev main_call0_cst_1 : Ref sig .tc := ⟨.hbm, 87, rfl⟩
abbrev main_call0_v8 : Ref sig .tc := ⟨.hbm, 88, rfl⟩
abbrev main_call0_cst_2 : Ref sig .tc := ⟨.hbm, 89, rfl⟩
abbrev main_call0_v9 : Ref sig .tc := ⟨.hbm, 90, rfl⟩
abbrev main_call0_v10 : Ref sig .tc := ⟨.hbm, 91, rfl⟩
abbrev main_call0_v11 : Ref sig .tc := ⟨.hbm, 92, rfl⟩
abbrev main_call0_cst_3 : Ref sig .tc := ⟨.hbm, 93, rfl⟩
abbrev main_call0_v12 : Ref sig .tc := ⟨.hbm, 94, rfl⟩
abbrev main_call0_cst_4 : Ref sig .tc := ⟨.hbm, 95, rfl⟩
abbrev main_call0_call0_v0 : Ref sig .tc := ⟨.hbm, 96, rfl⟩
abbrev main_call0_call0_v1 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_cst_10 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_call1_cst : Ref sig .tc := ⟨.hbm, 115, rfl⟩
abbrev main_call1_v0 : Ref sig .tc := ⟨.hbm, 116, rfl⟩
abbrev main_v70 : Ref sig .tc := ⟨.hbm, 117, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x64 : S_.BroadcastsInDim S800000x64 (![] : Fin 0 → Fin S800000x64.rank)
  bcast_S_S50000x64 : S_.BroadcastsInDim S50000x64 (![] : Fin 0 → Fin S50000x64.rank)
  reducesTo_S50000x64_S64_d0 : S50000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  dot_S50000x64_S64x64_S50000x64_1_0_0_1_n_n_wf : DotDims.WF S50000x64 S64x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.Dats.lean ====
import proofs.«406417_j47201690583086_1_alg».proof.Proof.Gen.KernelIdeal.Launch
import proofs.«406417_j47201690583086_1_alg».proof.Proof.Gen.KernelIdeal.Skeleton
import proofs.«406417_j47201690583086_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import Idealize.ShloMosaic.Lib.Pipeline.TableIdle

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => k0_pay2 (iblk0 V c 0 t) (iblk0 V c 1 t) (iblk0 V c 2 t)
    | ⟨8, _⟩ => k0_pay3 (iblk0 V c 0 t) (iblk0 V c 3 t) (iblk0 V c 4 t)
    | ⟨9, _⟩ => k0_pay4 (iblk0 V c 0 t) (iblk0 V c 5 t) (iblk0 V c 6 t)
  Φ _ := Pipeline.ΦA spec0 c
  q _ := fullShare
  owed _ := 0

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay1 (iblk1 V c 0 t) (iblk1 V c 1 t) (iblk1 V c 2 t)
  Φ _ := Pipeline.ΦA spec1 c
  q _ := fullShare
  owed _ := 0

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => k3_pay1 (iblk3 V c 0 t) (iblk3 V c 1 t) (iblk3 V c 2 t) (iblk3 V c 3 t) (iblk3 V c 4 t) (iblk3 V c 5 t)
  Φ _ := Pipeline.ΦA spec3 c
  q _ := fullShare
  owed _ := 0

def acc2 (c : Dev nD) : (n : ℕ) → n < cfg2.N → Vec F S1x64 .f32 × Vec F S1x64 .f32
  | 0, h => (k2_pay4 (iblk2 V c 0 ⟨0, h⟩) (iblk2 V c 1 ⟨0, h⟩) k2_pay1, k2_pay5 (iblk2 V c 0 ⟨0, h⟩) (iblk2 V c 1 ⟨0, h⟩) k2_pay2)
  | n + 1, h => (k2_pay4 (iblk2 V c 0 ⟨n + 1, h⟩) (iblk2 V c 1 ⟨n + 1, h⟩) (acc2 c n (Nat.lt_of_succ_lt h)).1,
      k2_pay5 (iblk2 V c 0 ⟨n + 1, h⟩) (iblk2 V c 1 ⟨n + 1, h⟩) (acc2 c n (Nat.lt_of_succ_lt h)).2)

theorem A_eq0 (c : Dev nD) (w : Fin cfg0.W) : (dat0 V c).A w = V c (Pipeline.arrRef spec0 w) := rfl
theorem A_eq1 (c : Dev nD) (w : Fin cfg1.W) : (dat1 V c).A w = V c (Pipeline.arrRef spec1 w) := rfl
theorem A_eq3 (c : Dev nD) (w : Fin cfg3.W) : (dat3 V c).A w = V c (Pipeline.arrRef spec3 w) := rfl

theorem after0_7 (c : Dev nD) (t : Fin cfg0.N) : (dat0 V c).after 7 t = k0_pay2 (iblk0 V c 0 t) (iblk0 V c 1 t) (iblk0 V c 2 t) := rfl
theorem after0_8 (c : Dev nD) (t : Fin cfg0.N) : (dat0 V c).after 8 t = k0_pay3 (iblk0 V c 0 t) (iblk0 V c 3 t) (iblk0 V c 4 t) := rfl
theorem after0_9 (c : Dev nD) (t : Fin cfg0.N) : (dat0 V c).after 9 t = k0_pay4 (iblk0 V c 0 t) (iblk0 V c 5 t) (iblk0 V c 6 t) := rfl
theorem after1_3 (c : Dev nD) (t : Fin cfg1.N) : (dat1 V c).after 3 t = k1_pay1 (iblk1 V c 0 t) (iblk1 V c 1 t) (iblk1 V c 2 t) := rfl
theorem after3_6 (c : Dev nD) (t : Fin cfg3.N) : (dat3 V c).after 6 t = k3_pay1 (iblk3 V c 0 t) (iblk3 V c 1 t) (iblk3 V c 2 t) (iblk3 V c 3 t) (iblk3 V c 4 t) (iblk3 V c 5 t) := rfl

theorem zeros_r2 : (![0, 0] : Fin 2 → Nat) = fun _ => 0 := by decide
theorem zeros_r1 : (![0] : Fin 1 → Nat) = fun _ => 0 := by decide

theorem load_whole_rep {κ : Kind} {sp : Space} {S : Shape} {e : EltTy} (v : View sig κ sp S e) {off : Fin S.rank → Nat}
    (h : off = fun _ => 0) (inb : ∀ a, off a + S.size a ≤ S.size a) (X : S.Idx → Elt F e) :
    v.readAt (Elt F) (Rect.unit off S.size inb).toLoadRect (v.rep X) = X := by
  rw [View.readAt_eq_ld, View.read_rep, View.ld_unit_zero h inb]

-- One store over the whole shape fixes every element, so what was there before does not matter.
theorem store_whole_rep (c : Thread nD τ) {sp : Space} {S : Shape} {e : EltTy} (m : Memref sig c.2.kind sp S e) (f : m.view.ty.Contents (Elt F))
    {off : Fin S.rank → Nat} (h : off = fun _ => 0) (inb : ∀ a, off a + S.size a ≤ S.size a) (w : S.Idx → Elt F e) :
    (m.view.loc c ↦[m.view.set]{fullShare} m.view.writes (Elt F) f [⟨Rect.unit off S.size inb, w⟩] : sProp 𝕄)
      ⊢ (m.view.loc c ↦[m.view.set]{fullShare} m.view.rep w : sProp 𝕄) := by
  rw [← owns_eq_rep]
  refine (owns_intro c m _ _).trans (Entails.of_eq ?_)
  rw [View.read_writes_eq_canon _ _ _ fun y => ⟨_, List.mem_singleton_self _, View.mem_set_unit_zero h inb y⟩,
    View.canon_unit_zero h inb]

end Cert.KernelIdeal.Hand

end
-- ==== Proof.Dat2.lean ====
import proofs.«406417_j47201690583086_1_alg».proof.Proof.Dats

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev scM2_0 : Memref sig .tc .vmem S1x64 .f32 := Memref.whole cc2_scratch0
abbrev scM2_1 : Memref sig .tc .vmem S1x64 .f32 := Memref.whole cc2_scratch1

-- The two carried rows at `s`, beside everything else the region's own invariant holds.
def rows2 (c : Dev nD) (s : Vec F S1x64 .f32 × Vec F S1x64 .f32) : sProp 𝕄 :=
  iprop(iprop(iprop(owns (c : Thread nD τ) scM2_0 fullShare s.1 ∗ owns (c : Thread nD τ) scM2_1 fullShare s.2)
    ∗ Pipeline.scopedRestBut spec2 c [cc2_scratch0, cc2_scratch1]) ∗ (∃ r, prngReg c r))

-- Before a point the rows hold some `s`: anything at the first point, what `acc2` says point `n` left after point `n`.
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (acc2 V c t.val t.isLt).1
    | ⟨3, _⟩ => (acc2 V c t.val t.isLt).2
  Φ t := iprop(∃ s, ⌜∀ n hn, t.val = n + 1 → s = acc2 V c n hn⌝ ∗ rows2 c s)
  q _ := fullShare
  owed _ := 0

theorem A_eq2 (c : Dev nD) (w : Fin cfg2.W) : (dat2 V c).A w = V c (Pipeline.arrRef spec2 w) := by dsimp only [dat2]

theorem after2_2 (c : Dev nD) (t : Fin cfg2.N) : (dat2 V c).after 2 t = (acc2 V c t.val t.isLt).1 := by dsimp only [dat2]
theorem after2_3 (c : Dev nD) (t : Fin cfg2.N) : (dat2 V c).after 3 t = (acc2 V c t.val t.isLt).2 := by dsimp only [dat2]

end Cert.KernelIdeal.Hand

end
-- ==== Proof.Fold.lean ====
import proofs.«406417_j47201690583086_1_alg».proof.Proof.Gen.KernelIdeal.Regions
import Idealize.ShloMosaic.Lib.Pipeline.FrameSuffix
import proofs.«406417_j47201690583086_1_alg».proof.Proof.Dats
import proofs.«406417_j47201690583086_1_alg».proof.Proof.Dat2

noncomputable section

namespace Cert.KernelIdeal.Hand

open Idealize.ShloMosaic Idealize.ShloMosaic.TcCoe
open Idealize.ShloMosaic.Pipeline (Dat Cfg)
open Cert.KernelIdeal Cert.KernelIdeal.Gen

variable {F : FTy → Type} [FloatOps F]

section Region

variable {cfg : Cfg sig Λ₀} {c : Dev nD} (d : Dat τ (Elt F) Unit ℕ (UR sig nD τ) ℕ cfg c) (V : Valuation τ sig (Elt F))

/-- The buffers after a region entered at `V`: each window's array at its final contents, every other buffer unchanged. -/
def exitV : Valuation τ sig (Elt F) := Pipeline.withArrays cfg.spec c V fun w => d.arrAt w cfg.N

variable (hw : Pipeline.WinFacts cfg.spec)
include hw

theorem exitV_arr (w : Fin cfg.W) : exitV d V (Proc.devRef .tc (Pipeline.arrRef cfg.spec w)) = d.arrAt w cfg.N :=
  Pipeline.withArrays_arr cfg.spec hw.arr_inj c _ _ w

/-- An input window's array keeps its entry contents, and `exitV` changes no buffer that is not a window's array. -/
theorem exitV_keep (hA : ∀ w, d.A w = V (Proc.devRef .tc (Pipeline.arrRef cfg.spec w))) {O : List (Ref sig .tc)}
    (hO : ∀ w, (cfg.win w).isOut = true → Pipeline.arrRef cfg.spec w ∈ O) (b : Ref sig .tc) (hb : b ∉ O) :
    exitV d V (Proc.devRef .tc b) = V (Proc.devRef .tc b) := by
  by_cases h : ∃ w, Pipeline.arrRef cfg.spec w = b
  · obtain ⟨w, rfl⟩ := h
    exact (exitV_arr d V hw w).trans ((d.arrAt_in w (Bool.eq_false_iff.mpr fun hq => hb (hO w hq)) _).trans (hA w))
  · exact Pipeline.withArrays_of_ne cfg.spec c _ _ b fun w e => h ⟨w, e⟩

end Region

variable (m : (ℓ : Loc nD τ sig) → Buf (Elt F) ℓ)

/-- A valuation read at the core's references. -/
abbrev atRefs (X : Dev nD → Valuation τ sig (Elt F)) (c : Dev nD) (b : Ref sig .tc) : Buf (Elt F) ((c : Thread nD τ).loc b) := X c b

abbrev X0 : Dev nD → Valuation τ sig (Elt F) := fun c b => m (c, b)
abbrev X1 : Dev nD → Valuation τ sig (Elt F) := fun c => StableHlo.after hostOps0 (X0 m c)
abbrev Y1 := atRefs (X1 m)
def X2 (c : Dev nD) : Valuation τ sig (Elt F) := exitV (dat0 (Y1 m) c) (X1 m c)
abbrev X3 : Dev nD → Valuation τ sig (Elt F) := fun c => StableHlo.after hostOps1 (X2 m c)
abbrev X4 : Dev nD → Valuation τ sig (Elt F) := fun c => StableHlo.after hostOps1_1 (X3 m c)
abbrev X5 : Dev nD → Valuation τ sig (Elt F) := fun c => StableHlo.after hostOps1_2 (X4 m c)
abbrev Y5 := atRefs (X5 m)
def X6 (c : Dev nD) : Valuation τ sig (Elt F) := exitV (dat1 (Y5 m) c) (X5 m c)
abbrev X7 : Dev nD → Valuation τ sig (Elt F) := fun c => StableHlo.after hostOps2 (X6 m c)
abbrev Y7 := atRefs (X7 m)
def X8 (c : Dev nD) : Valuation τ sig (Elt F) := exitV (dat2 (Y7 m) c) (X7 m c)
abbrev X9 : Dev nD → Valuation τ sig (Elt F) := fun c => StableHlo.after hostOps3 (X8 m c)
abbrev Y9 := atRefs (X9 m)
def X10 (c : Dev nD) : Valuation τ sig (Elt F) := exitV (dat3 (Y9 m) c) (X9 m c)

theorem X2_arr (c : Dev nD) (w : Fin cfg0.W) :
    X2 m c (Proc.devRef .tc (Pipeline.arrRef spec0 w)) = (dat0 (Y1 m) c).arrAt w cfg0.N := exitV_arr _ _ launch0.win w
theorem X6_arr (c : Dev nD) (w : Fin cfg1.W) :
    X6 m c (Proc.devRef .tc (Pipeline.arrRef spec1 w)) = (dat1 (Y5 m) c).arrAt w cfg1.N := exitV_arr _ _ launch1.win w
theorem X8_arr (c : Dev nD) (w : Fin cfg2.W) :
    X8 m c (Proc.devRef .tc (Pipeline.arrRef spec2 w)) = (dat2 (Y7 m) c).arrAt w cfg2.N := exitV_arr _ _ launch2.win w
theorem X10_arr (c : Dev nD) (w : Fin cfg3.W) :
    X10 m c (Proc.devRef .tc (Pipeline.arrRef spec3 w)) = (dat3 (Y9 m) c).arrAt w cfg3.N := exitV_arr _ _ launch3.win w

theorem X1_keep (c : Dev nD) (r : Ref sig .tc) (h : r ∉ hostOps0_W) : X1 m c (Proc.devRef .tc r) = X0 m c (Proc.devRef .tc r) :=
  StableHlo.after_of_writes_sub hostOps0 _ hostOps0_writes h
theorem X2_keep (c : Dev nD) (b : Ref sig .tc) (hb : b ∉ ([main_v4_0, main_v4_1, main_v4_2] : List (Ref sig .tc))) :
    X2 m c (Proc.devRef .tc b) = X1 m c (Proc.devRef .tc b) := exitV_keep _ _ launch0.win (A_eq0 _ c) (by decide) b hb
theorem X3_keep (c : Dev nD) (r : Ref sig .tc) (h : r ∉ hostOps1_W) : X3 m c (Proc.devRef .tc r) = X2 m c (Proc.devRef .tc r) :=
  StableHlo.after_of_writes_sub hostOps1 _ hostOps1_writes h
theorem X4_keep (c : Dev nD) (r : Ref sig .tc) (h : r ∉ hostOps1_1_W) : X4 m c (Proc.devRef .tc r) = X3 m c (Proc.devRef .tc r) :=
  StableHlo.after_of_writes_sub hostOps1_1 _ hostOps1_1_writes h
theorem X5_keep (c : Dev nD) (r : Ref sig .tc) (h : r ∉ hostOps1_2_W) : X5 m c (Proc.devRef .tc r) = X4 m c (Proc.devRef .tc r) :=
  StableHlo.after_of_writes_sub hostOps1_2 _ hostOps1_2_writes h
theorem X6_keep (c : Dev nD) (b : Ref sig .tc) (hb : b ∉ ([main_v8] : List (Ref sig .tc))) :
    X6 m c (Proc.devRef .tc b) = X5 m c (Proc.devRef .tc b) := exitV_keep _ _ launch1.win (A_eq1 _ c) (by decide) b hb
theorem X7_keep (c : Dev nD) (r : Ref sig .tc) (h : r ∉ hostOps2_W) : X7 m c (Proc.devRef .tc r) = X6 m c (Proc.devRef .tc r) :=
  StableHlo.after_of_writes_sub hostOps2 _ hostOps2_writes h
theorem X8_keep (c : Dev nD) (b : Ref sig .tc) (hb : b ∉ ([main_v12_0, main_v12_1] : List (Ref sig .tc))) :
    X8 m c (Proc.devRef .tc b) = X7 m c (Proc.devRef .tc b) := exitV_keep _ _ launch2.win (A_eq2 _ c) (by decide) b hb
theorem X9_keep (c : Dev nD) (r : Ref sig .tc) (h : r ∉ hostOps3_W) : X9 m c (Proc.devRef .tc r) = X8 m c (Proc.devRef .tc r) :=
  StableHlo.after_of_writes_sub hostOps3 _ hostOps3_writes h
theorem X10_keep (c : Dev nD) (b : Ref sig .tc) (hb : b ∉ ([main_v22] : List (Ref sig .tc))) :
    X10 m c (Proc.devRef .tc b) = X9 m c (Proc.devRef .tc b) := exitV_keep _ _ launch3.win (A_eq3 _ c) (by decide) b hb

/-- No item of @main writes `r`: no host stretch does, and no region has it as an output. -/
abbrev Unwritten (r : Ref sig .tc) : Prop :=
  r ∉ hostOps0_W ∧ r ∉ [main_v4_0, main_v4_1, main_v4_2] ∧ r ∉ hostOps1_W ∧ r ∉ hostOps1_1_W ∧ r ∉ hostOps1_2_W ∧ r ∉ [main_v8]
    ∧ r ∉ hostOps2_W ∧ r ∉ [main_v12_0, main_v12_1] ∧ r ∉ hostOps3_W ∧ r ∉ [main_v22]

theorem X10_arg (c : Dev nD) (r : Ref sig .tc) (h : Unwritten r) : X10 m c (Proc.devRef .tc r) = m ((c : Thread nD τ).loc r) := by
  obtain ⟨h0, h1, h2, h3, h4, h5, h6, h7, h8, h9⟩ := h
  exact (X10_keep m c r h9).trans <| (X9_keep m c r h8).trans <| (X8_keep m c r h7).trans <| (X7_keep m c r h6).trans <|
    (X6_keep m c r h5).trans <| (X5_keep m c r h4).trans <| (X4_keep m c r h3).trans <| (X3_keep m c r h2).trans <|
    (X2_keep m c r h1).trans <| X1_keep m c r h0

end Cert.KernelIdeal.Hand

end
-- ==== Proof.Reg0.lean ====
import proofs.«406417_j47201690583086_1_alg».proof.Proof.Dats

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before0 (c : Dev nD) (t : Fin cfg0.N) : (∀ d, (dat0 V c).before 0 t d = (dat0 V c).after 0 t)
    ∧ (∀ d, (dat0 V c).before 1 t d = (dat0 V c).after 1 t)
    ∧ (∀ d, (dat0 V c).before 2 t d = (dat0 V c).after 2 t)
    ∧ (∀ d, (dat0 V c).before 3 t d = (dat0 V c).after 3 t)
    ∧ (∀ d, (dat0 V c).before 4 t d = (dat0 V c).after 4 t)
    ∧ (∀ d, (dat0 V c).before 5 t d = (dat0 V c).after 5 t)
    ∧ ∀ d, (dat0 V c).before 6 t d = (dat0 V c).after 6 t := by
  refine ⟨?_, ?_, ?_, ?_, ?_, ?_, ?_⟩ <;>
    exact fun d => ((dat0 V c).before_in_eq_fetched _ rfl (fun _ => rfl) (fun _ _ _ => rfl) (fun _ => rfl) t d).trans rfl

set_option maxHeartbeats 1000000 in
theorem sound_kernel0 (c : Dev nD) (E : Set ℕ) (i : grid0.Coords) (arg1 : Memref sig .tc .vmem S5000x64 .f32) (harg1 : arg1.IsWhole) (arg2 : Memref sig .tc .vmem S64x64 .f32) (harg2 : arg2.IsWhole) (arg3 : Memref sig .tc .vmem S64 .f32) (harg3 : arg3.IsWhole) (arg4 : Memref sig .tc .vmem S64x64 .f32) (harg4 : arg4.IsWhole) (arg5 : Memref sig .tc .vmem S64 .f32) (harg5 : arg5.IsWhole) (arg6 : Memref sig .tc .vmem S64x64 .f32) (harg6 : arg6.IsWhole) (arg7 : Memref sig .tc .vmem S64 .f32) (harg7 : arg7.IsWhole) (arg8 : Memref sig .tc .vmem S5000x64 .f32) (harg8 : arg8.IsWhole) (arg9 : Memref sig .tc .vmem S5000x64 .f32) (harg9 : arg9.IsWhole) (arg10 : Memref sig .tc .vmem S5000x64 .f32) (harg10 : arg10.IsWhole)
    (x0 : Vec F S5000x64 .f32) (x1 : Vec F S64x64 .f32) (x2 : Vec F S64 .f32) (x3 : Vec F S64x64 .f32) (x4 : Vec F S64 .f32) (x5 : Vec F S64x64 .f32) (x6 : Vec F S64 .f32) (K : PUnit → sProp 𝕄) :
    iprop(owns c arg1 fullShare x0 ∗ owns c arg2 fullShare x1 ∗ owns c arg3 fullShare x2 ∗ owns c arg4 fullShare x3 ∗ owns c arg5 fullShare x4 ∗ owns c arg6 fullShare x5 ∗ owns c arg7 fullShare x6 ∗ (∃ d, owns c arg8 fullShare d) ∗ (∃ d, owns c arg9 fullShare d) ∗ (∃ d, owns c arg10 fullShare d)
        ∗ (iprop(owns c arg1 fullShare x0 ∗ owns c arg2 fullShare x1 ∗ owns c arg3 fullShare x2 ∗ owns c arg4 fullShare x3 ∗ owns c arg5 fullShare x4 ∗ owns c arg6 fullShare x5 ∗ owns c arg7 fullShare x6 ∗ owns c arg8 fullShare (k0_pay2 x0 x1 x2) ∗ owns c arg9 fullShare (k0_pay3 x0 x3 x4) ∗ owns c arg10 fullShare (k0_pay4 x0 x5 x6)) -∗ K ⟨⟩))
      ⊢ wp frame (wpE (defs₀ (F := F)) Variants.none c none) E (cc0__proj_kernel i arg1 harg1 arg2 harg2 arg3 harg3 arg4 harg4 arg5 harg5 arg6 harg6 arg7 harg7 arg8 harg8 arg9 harg9 arg10 harg10) K := by
  simp only [cc0__proj_kernel_eq_skeleton, owns_eq_rep]; unfold cc0__proj_kernel_skel
  iintro ⟨H0, H1, H2, H3, H4, H5, H6, ⟨%d0, H7⟩, ⟨%d1, H8⟩, ⟨%d2, H9⟩, Hk⟩
  sl_exec
  sl_step
  iapply Hk
  iframe H0 H1 H2 H3 H4 H5 H6
  simp only [load_whole_rep (S := S5000x64) _ zeros_r2, load_whole_rep (S := S64x64) _ zeros_r2, load_whole_rep (S := S64) _ zeros_r1]
  isplitl [H7]; · iapply (store_whole_rep (S := S5000x64) _ _ _ zeros_r2); iexact H7
  isplitl [H8]; · iapply (store_whole_rep (S := S5000x64) _ _ _ zeros_r2); iexact H8
  iapply (store_whole_rep (S := S5000x64) _ _ _ zeros_r2); iexact H9

theorem body_obligation0 (c : Dev nD) : BodyObligation (dat0 (F := F) V c) (defs₀ (F := F)) Variants.none () Set.univ := fun t => by
  rw [bigSep_W0, bigSep_W0]
  obtain ⟨b0, b1, b2, b3, b4, b5, b6⟩ := before0 V c t
  simp only [b0, b1, b2, b3, b4, b5, b6]
  rw [show (dat0 V c).Φ t.succ = (dat0 V c).Φ t.castSucc from rfl,
    show (dat0 V c).owesAt () t.succ = (dat0 V c).owesAt () t.castSucc from rfl,
    show (dat0 V c).after 7 t = k0_pay2 ((dat0 V c).after 0 t) ((dat0 V c).after 1 t) ((dat0 V c).after 2 t) from rfl,
    show (dat0 V c).after 8 t = k0_pay3 ((dat0 V c).after 0 t) ((dat0 V c).after 3 t) ((dat0 V c).after 4 t) from rfl,
    show (dat0 V c).after 9 t = k0_pay4 ((dat0 V c).after 0 t) ((dat0 V c).after 5 t) ((dat0 V c).after 6 t) from rfl]
  show _ ⊢ wp _ _ _ (bodyAt0 t) _
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ ((dat0 V c).after 0 t) ((dat0 V c).after 1 t) ((dat0 V c).after 2 t) ((dat0 V c).after 3 t) ((dat0 V c).after 4 t) ((dat0 V c).after 5 t) ((dat0 V c).after 6 t))
  iframe H0 H1 H2 H3 H4 H5 H6
  isplitl [H7]; · iexists _; iexact H7
  isplitl [H8]; · iexists _; iexact H8
  isplitl [H9]; · iexists _; iexact H9
  iintro ⟨H0, H1, H2, H3, H4, H5, H6, H7, H8, H9⟩
  iframe

end Cert.KernelIdeal.Hand

end
-- ==== Proof.Reg1.lean ====
import proofs.«406417_j47201690583086_1_alg».proof.Proof.Dats

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before1 (c : Dev nD) (t : Fin cfg1.N) : (∀ d, (dat1 V c).before 0 t d = (dat1 V c).after 0 t)
    ∧ (∀ d, (dat1 V c).before 1 t d = (dat1 V c).after 1 t)
    ∧ ∀ d, (dat1 V c).before 2 t d = (dat1 V c).after 2 t := by
  refine ⟨?_, ?_, ?_⟩ <;>
    exact fun d => ((dat1 V c).before_in_eq_fetched _ rfl (fun _ => rfl) (fun _ _ _ => rfl) (fun _ => rfl) t d).trans rfl

set_option maxHeartbeats 1000000 in
theorem sound_kernel1 (c : Dev nD) (E : Set ℕ) (i : grid1.Coords) (arg0 : Memref sig .tc .vmem S8000x64 .f32) (harg0 : arg0.IsWhole) (arg1 : Memref sig .tc .vmem S8000x64 .f32) (harg1 : arg1.IsWhole) (arg2 : Memref sig .tc .vmem S8000x64 .f32) (harg2 : arg2.IsWhole) (arg3 : Memref sig .tc .vmem S8000x64 .f32) (harg3 : arg3.IsWhole)
    (x0 x1 x2 : Vec F S8000x64 .f32) (K : PUnit → sProp 𝕄) :
    iprop(owns c arg0 fullShare x0 ∗ owns c arg1 fullShare x1 ∗ owns c arg2 fullShare x2 ∗ (∃ d, owns c arg3 fullShare d)
        ∗ (iprop(owns c arg0 fullShare x0 ∗ owns c arg1 fullShare x1 ∗ owns c arg2 fullShare x2 ∗ owns c arg3 fullShare (k1_pay1 x0 x1 x2)) -∗ K ⟨⟩))
      ⊢ wp frame (wpE (defs₀ (F := F)) Variants.none c none) E (cc1__edge_gate_kernel i arg0 harg0 arg1 harg1 arg2 harg2 arg3 harg3) K := by
  simp only [cc1__edge_gate_kernel_eq_skeleton, owns_eq_rep]; unfold cc1__edge_gate_kernel_skel
  iintro ⟨H0, H1, H2, ⟨%d0, H3⟩, Hk⟩
  sl_exec
  sl_step
  iapply Hk
  iframe H0 H1 H2
  simp only [load_whole_rep (S := S8000x64) _ zeros_r2]
  iapply (store_whole_rep (S := S8000x64) _ _ _ zeros_r2); iexact H3

theorem body_obligation1 (c : Dev nD) : BodyObligation (dat1 (F := F) V c) (defs₀ (F := F)) Variants.none () Set.univ := fun t => by
  rw [bigSep_W1, bigSep_W1]
  obtain ⟨b0, b1, b2⟩ := before1 V c t
  simp only [b0, b1, b2]
  rw [show (dat1 V c).Φ t.succ = (dat1 V c).Φ t.castSucc from rfl,
    show (dat1 V c).owesAt () t.succ = (dat1 V c).owesAt () t.castSucc from rfl,
    show (dat1 V c).after 3 t = k1_pay1 ((dat1 V c).after 0 t) ((dat1 V c).after 1 t) ((dat1 V c).after 2 t) from rfl]
  show _ ⊢ wp _ _ _ (bodyAt1 t) _
  iintro ⟨HΦ, Ho, ⟨%d0, H0⟩, ⟨%d1, H1⟩, ⟨%d2, H2⟩, ⟨%d3, H3⟩⟩
  iapply (sound_kernel1 c Set.univ _ _ _ _ _ _ _ _ _ ((dat1 V c).after 0 t) ((dat1 V c).after 1 t) ((dat1 V c).after 2 t))
  iframe H0 H1 H2
  isplitl [H3]; · iexists _; iexact H3
  iintro ⟨H0, H1, H2, H3⟩
  iframe

end Cert.KernelIdeal.Hand

end
-- ==== Proof.Reg2.lean ====
import proofs.«406417_j47201690583086_1_alg».proof.Proof.Dat2

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond2_0 (i : grid2.Coords) : Prop := (Scalar.cmpi .ne (Scalar.extui (Scalar.cmpi .eq (BitVec.ofNat 32 (i 0).val) 0#32)) 0#32) = 1#1
abbrev cond2_1 (i : grid2.Coords) : Prop := k2_cond2 i = 1#1

section Whole

variable {sig' : RefSig} {κ' : Kind} {sp' : Space} {Val : EltTy → Type} {S : Shape} {e : EltTy} (v : View sig' κ' sp' S e) (f : v.ty.Contents Val)
  (off : Fin S.rank → ℕ) (inb : ∀ a, off a + S.size a ≤ S.size a) (hoff : ∀ a, off a = 0)
include hoff

-- Offset zero, stride one, the shape's own sizes: the rectangle is the identity on indices.
theorem unit_whole_idx (y : S.Idx) : (Rect.unit (s := S) off S.size inb).idx y = y :=
  funext fun a => Fin.ext (by simp only [LoadRect.idx_apply, Rect.off_unit, Rect.stride_unit, hoff a]; omega)

theorem readAt_unit_whole : v.readAt Val (Rect.unit (s := S) off S.size inb).toLoadRect f = v.read Val f := by
  funext y
  show v.read Val f ((Rect.unit (s := S) off S.size inb).idx y) = v.read Val f y
  rw [unit_whole_idx off inb hoff y]

theorem read_writes_unit_whole (p : S.Idx → Val e) (L : List (View.Piece Val S e)) :
    v.read Val (v.writes Val f (⟨Rect.unit (s := S) off S.size inb, p⟩ :: L)) = p := by
  funext y
  have h := View.read_writes_cons_emb (v := v) (f := f) (Rect.unit (s := S) off S.size inb) p L y
  rwa [show (Rect.unit (s := S) off S.size inb).emb y = y from unit_whole_idx off inb hoff y] at h

theorem read_guard_unit_whole (p : S.Idx → Val e) (P : Prop) [Decidable P] :
    v.read Val (if _ : P then v.writes Val f [⟨Rect.unit (s := S) off S.size inb, p⟩] else f) = if P then p else v.read Val f := by
  by_cases h : P
  · rw [dif_pos h, if_pos h]; exact read_writes_unit_whole v f off inb hoff p []
  · rw [dif_neg h, if_neg h]

end Whole

theorem off2_zero : ∀ a : Fin 2, (![0, 0] : Fin 2 → ℕ) a = 0 := Fin.forall_fin_two.mpr ⟨rfl, rfl⟩
theorem off1_zero : ∀ a : Fin 1, (![0] : Fin 1 → ℕ) a = 0 := Fin.forall_fin_one.mpr rfl

-- What the two rows hold after the body at coordinates `i`, having held `s0`, `s1` before it.
def step2 (i : grid2.Coords) (x0 : Vec F S5000x64 .f32) (x1 : Vec F S64 .f32) (s0 s1 : Vec F S1x64 .f32) : Vec F S1x64 .f32 × Vec F S1x64 .f32 :=
  (k2_pay4 x0 x1 (if cond2_0 i then k2_pay1 else s0), k2_pay5 x0 x1 (if cond2_0 i then k2_pay2 else s1))

section Kernel

variable (c : Dev nD) (arg1 : Memref sig .tc .vmem S5000x64 .f32) (arg2 : Memref sig .tc .vmem S64 .f32) (arg3 arg4 arg5 arg6 : Memref sig .tc .vmem S1x64 .f32)

def held2 (x0 : Vec F S5000x64 .f32) (x1 : Vec F S64 .f32) (o2 o3 r0 r1 : Vec F S1x64 .f32) : sProp 𝕄 :=
  iprop(owns (c : Thread nD τ) arg1 fullShare x0 ∗ owns (c : Thread nD τ) arg2 fullShare x1 ∗ owns (c : Thread nD τ) arg3 fullShare o2
    ∗ owns (c : Thread nD τ) arg4 fullShare o3 ∗ owns (c : Thread nD τ) arg5 fullShare r0 ∗ owns (c : Thread nD τ) arg6 fullShare r1)

-- Both conditionals are left open: the rows are reset where the first holds, and copied out where the second does.
theorem sound_kernel2 (E : Set ℕ) (i : grid2.Coords) (harg1 : arg1.IsWhole) (harg2 : arg2.IsWhole) (harg3 : arg3.IsWhole) (harg4 : arg4.IsWhole)
    (harg5 : arg5.IsWhole) (harg6 : arg6.IsWhole) (x0 : Vec F S5000x64 .f32) (x1 : Vec F S64 .f32) (d2 d3 s0 s1 : Vec F S1x64 .f32) (K : PUnit → sProp 𝕄) :
    iprop(held2 c arg1 arg2 arg3 arg4 arg5 arg6 x0 x1 d2 d3 s0 s1
        ∗ (held2 c arg1 arg2 arg3 arg4 arg5 arg6 x0 x1 (if cond2_1 i then (step2 i x0 x1 s0 s1).1 else d2) (if cond2_1 i then (step2 i x0 x1 s0 s1).2 else d3)
            (step2 i x0 x1 s0 s1).1 (step2 i x0 x1 s0 s1).2 -∗ K ⟨⟩))
      ⊢ wp frame (wpE (defs₀ (F := F)) Variants.none c none) E (cc2__stats_kernel i arg1 harg1 arg2 harg2 arg3 harg3 arg4 harg4 arg5 harg5 arg6 harg6) K := by
  simp only [cc2__stats_kernel_eq_skeleton]; unfold cc2__stats_kernel_skel held2 owns
  iintro ⟨⟨⟨%f0, %hf0, H0⟩, ⟨%f1, %hf1, H1⟩, ⟨%f2, %hf2, H2⟩, ⟨%f3, %hf3, H3⟩, ⟨%f4, %hf4, H4⟩, %f5, %hf5, H5⟩, Hk⟩
  subst hf0 hf1 hf2 hf3 hf4 hf5
  sl_exec
  sl_step
  iapply Hk
  isplitl [H0]
  on_goal 2 => isplitl [H1]
  on_goal 3 => isplitl [H2]
  on_goal 4 => isplitl [H3]
  on_goal 5 => isplitl [H4]
  all_goals
    iexists _; isplitr; swap; iassumption
    ipureintro
    try delta sound_kernel2.sl.v27 sound_kernel2.sl.v29 sound_kernel2.sl.H4_1 sound_kernel2.sl.H5_1 sound_kernel2.sl.v9 sound_kernel2.sl.v16 sound_kernel2.sl.v2 sound_kernel2.sl.v1 sound_kernel2.sl.v0
    simp only [step2, View.readCov, readAt_unit_whole (S := S5000x64) _ _ _ _ off2_zero, readAt_unit_whole (S := S64) _ _ _ _ off1_zero,
      readAt_unit_whole (S := S1x64) _ _ _ _ off2_zero, read_writes_unit_whole (S := S1x64) _ _ _ _ off2_zero, read_guard_unit_whole (S := S1x64) _ _ _ _ off2_zero]

end Kernel

theorem hcond2_0 : ∀ t : Fin cfg2.N, cond2_0 (grid2.coords t) ↔ t.val = 0 := by decide +kernel

theorem idle2 : ∀ (t : Fin cfg2.N) (w : Fin cfg2.W), 2 ≤ w.val → ¬cond2_1 (grid2.coords t) → cfg2.idle w (grid2.coords t) = true ∧ (cfg2.win w).flush t = false := by decide +kernel
theorem live2 : ∀ (t : Fin cfg2.N) (w : Fin cfg2.W), cond2_1 (grid2.coords t) → cfg2.idle w (grid2.coords t) = false := by decide +kernel

theorem before2_in (c : Dev nD) (t : Fin cfg2.N) :
    (∀ d, (dat2 V c).before 0 t d = iblk2 V c 0 t) ∧ ∀ d, (dat2 V c).before 1 t d = iblk2 V c 1 t := by
  constructor <;> intro d <;>
  exact ((dat2 V c).before_in_eq_fetched _ rfl (fun _ => rfl) (fun _ _ _ => rfl) (fun t => by unfold Dat.blockOf; dsimp only [dat2, iblk2]; try rfl) t d).trans
    (by unfold Dat.fetched Dat.blockOf iblk2; rw [A_eq2]; try rfl)

theorem acc2_step (c : Dev nD) (t : Fin cfg2.N) (s) (hs : ∀ n hn, t.val = n + 1 → s = acc2 V c n hn) :
    acc2 V c t.val t.isLt = step2 (grid2.coords t) (iblk2 V c 0 t) (iblk2 V c 1 t) s.1 s.2 := by
  have h := hcond2_0 t
  unfold step2
  obtain ⟨n, hn⟩ := t
  cases n with
  | zero => rw [if_pos (h.mpr rfl), if_pos (h.mpr rfl)]; rfl
  | succ n => rw [if_neg (mt h.mp n.succ_ne_zero), if_neg (mt h.mp n.succ_ne_zero), hs n (Nat.lt_of_succ_lt hn) rfl]; rfl

theorem leaves2_out (c : Dev nD) (t : Fin cfg2.N) (w : Fin cfg2.W) (hw : 2 ≤ w.val) (d) :
    owns (c : Thread nD τ) ((cfg2.win w).stage (cfg2.slots t w)) fullShare (if cond2_1 (grid2.coords t) then (dat2 V c).after w t else (dat2 V c).before w t d)
      ⊢ (dat2 V c).leavesExact w t := by
  by_cases h : cond2_1 (grid2.coords t)
  · rw [if_pos h]; unfold Dat.leavesExact; rw [live2 t w h]
  · rw [if_neg h, Dat.leavesExact_idle _ w t (idle2 t w hw h).1 (idle2 t w hw h).2]
    iintro H; iexists d; iexact H

theorem body_obligation2 (c : Dev nD) : BodyObligation (dat2 (F := F) V c) (defs₀ (F := F)) Variants.none () Set.univ := fun t => by
  rw [bigSep_W2, bigSep_W2]
  change iprop(iprop(∃ s, ⌜∀ n hn, t.val = n + 1 → s = acc2 V c n hn⌝ ∗ rows2 c s) ∗ _ ∗ _ ∗ _ ∗ _ ∗ _)
    ⊢ wp frame _ Set.univ (bodyAt2 t) fun _ => iprop(iprop(∃ s, ⌜∀ n hn, t.val + 1 = n + 1 → s = acc2 V c n hn⌝ ∗ rows2 c s) ∗ (dat2 V c).owesAt () t.castSucc
      ∗ owns (c : Thread nD τ) (st2_0 t) fullShare (iblk2 V c 0 t) ∗ owns (c : Thread nD τ) (st2_1 t) fullShare (iblk2 V c 1 t) ∗ (dat2 V c).leavesExact 2 t ∗ (dat2 V c).leavesExact 3 t)
  simp only [(before2_in V c t).1, (before2_in V c t).2]
  unfold rows2
  iintro ⟨⟨%s, %hs, ⟨⟨HS0, HS1⟩, HR⟩, Hg⟩, Ho, ⟨%d0, H0⟩, ⟨%d1, H1⟩, ⟨%d2, H2⟩, ⟨%d3, H3⟩⟩
  iapply (sound_kernel2 c _ _ _ _ _ _ Set.univ (grid2.coords t) _ _ _ _ _ _ (iblk2 V c 0 t) (iblk2 V c 1 t) ((dat2 V c).before 2 t d2) ((dat2 V c).before 3 t d3) s.1 s.2 _)
  unfold held2
  iframe H0 H1 H2 H3 HS0 HS1
  rw [← acc2_step V c t s hs]
  iintro ⟨H0, H1, H2, H3, HS0, HS1⟩
  isplitl [HS0 HS1 HR Hg]
  · iexists (acc2 V c t.val t.isLt); isplitr; · ipureintro; exact fun n hn h => by cases h; rfl
    iframe
  iframe Ho H0 H1
  isplitl [H2]
  · iapply (leaves2_out V c t 2 (by decide) d2); rw [after2_2]; iexact H2
  iapply (leaves2_out V c t 3 (by decide) d3); rw [after2_3]; iexact H3

end Cert.KernelIdeal.Hand

end
-- ==== Proof.Reg2IO.lean ====
import proofs.«406417_j47201690583086_1_alg».proof.Proof.Dat2

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

-- The region's own invariant with the two carried rows named, each at some contents.
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
          ∗ Pipeline.scopedRestBut spec2 c [cc2_scratch0, cc2_scratch1]) ∗ (∃ r, prngReg c r)) := by
  unfold Pipeline.ΦA; rw [scopedRest2_split]; simp only [scM2_0, scM2_1, owns_whole]; try rfl

theorem hin2 (c : Dev nD) : Pipeline.ΦA spec2 c ⊢ (dat2 V c).Φ 0 := by
  rw [PhiA2_eq]; dsimp only [dat2, rows2]
  iintro ⟨⟨⟨⟨%d0, H0⟩, %d1, H1⟩, HR⟩, Hg⟩
  iexists (d0, d1); isplitr; · ipureintro; exact fun n _ h => absurd h n.succ_ne_zero.symm
  iframe

theorem hout2 (c : Dev nD) : (dat2 V c).Φ (Fin.last cfg2.N) ⊢ Pipeline.ΦA spec2 c := by
  rw [PhiA2_eq]; dsimp only [dat2, rows2]
  iintro ⟨%s, -, ⟨⟨H0, H1⟩, HR⟩, Hg⟩
  iframe HR Hg
  isplitl [H0] <;> iexists _ <;> iassumption

end Cert.KernelIdeal.Hand

end
-- ==== Proof.Reg3.lean ====
import proofs.«406417_j47201690583086_1_alg».proof.Proof.Dats

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before3 (c : Dev nD) (t : Fin cfg3.N) : (∀ d, (dat3 V c).before 0 t d = (dat3 V c).after 0 t)
    ∧ (∀ d, (dat3 V c).before 1 t d = (dat3 V c).after 1 t)
    ∧ (∀ d, (dat3 V c).before 2 t d = (dat3 V c).after 2 t)
    ∧ (∀ d, (dat3 V c).before 3 t d = (dat3 V c).after 3 t)
    ∧ (∀ d, (dat3 V c).before 4 t d = (dat3 V c).after 4 t)
    ∧ ∀ d, (dat3 V c).before 5 t d = (dat3 V c).after 5 t := by
  refine ⟨?_, ?_, ?_, ?_, ?_, ?_⟩ <;>
    exact fun d => ((dat3 V c).before_in_eq_fetched _ rfl (fun _ => rfl) (fun _ _ _ => rfl) (fun _ => rfl) t d).trans rfl

set_option maxHeartbeats 1000000 in
theorem sound_kernel3 (c : Dev nD) (E : Set ℕ) (i : grid3.Coords) (arg0 : Memref sig .tc .vmem S5000x64 .f32) (harg0 : arg0.IsWhole) (arg1 : Memref sig .tc .vmem S64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S64 .f32) (harg4 : arg4.IsWhole) (arg5 : Memref sig .tc .vmem S64 .f32) (harg5 : arg5.IsWhole) (arg6 : Memref sig .tc .vmem S5000x64 .f32) (harg6 : arg6.IsWhole)
    (x0 : Vec F S5000x64 .f32) (x1 : Vec F S64 .f32) (x2 x3 : Vec F S1x64 .f32) (x4 x5 : Vec F S64 .f32) (K : PUnit → sProp 𝕄) :
    iprop(owns c arg0 fullShare x0 ∗ owns c arg1 fullShare x1 ∗ owns c arg2 fullShare x2 ∗ owns c arg3 fullShare x3 ∗ owns c arg4 fullShare x4 ∗ owns c arg5 fullShare x5 ∗ (∃ d, owns c arg6 fullShare d)
        ∗ (iprop(owns c arg0 fullShare x0 ∗ owns c arg1 fullShare x1 ∗ owns c arg2 fullShare x2 ∗ owns c arg3 fullShare x3 ∗ owns c arg4 fullShare x4 ∗ owns c arg5 fullShare x5 ∗ owns c arg6 fullShare (k3_pay1 x0 x1 x2 x3 x4 x5)) -∗ K ⟨⟩))
      ⊢ wp frame (wpE (defs₀ (F := F)) Variants.none c none) E (cc3__norm_kernel i arg0 harg0 arg1 harg1 arg2 harg2 arg3 harg3 arg4 harg4 arg5 harg5 arg6 harg6) K := by
  simp only [cc3__norm_kernel_eq_skeleton, owns_eq_rep]; unfold cc3__norm_kernel_skel
  iintro ⟨H0, H1, H2, H3, H4, H5, ⟨%d0, H6⟩, Hk⟩
  sl_exec
  sl_step
  iapply Hk
  iframe H0 H1 H2 H3 H4 H5
  simp only [load_whole_rep (S := S5000x64) _ zeros_r2, load_whole_rep (S := S64) _ zeros_r1, load_whole_rep (S := S1x64) _ zeros_r2]
  iapply (store_whole_rep (S := S5000x64) _ _ _ zeros_r2); iexact H6

theorem body_obligation3 (c : Dev nD) : BodyObligation (dat3 (F := F) V c) (defs₀ (F := F)) Variants.none () Set.univ := fun t => by
  rw [bigSep_W3, bigSep_W3]
  obtain ⟨b0, b1, b2, b3, b4, b5⟩ := before3 V c t
  simp only [b0, b1, b2, b3, b4, b5]
  rw [show (dat3 V c).Φ t.succ = (dat3 V c).Φ t.castSucc from rfl,
    show (dat3 V c).owesAt () t.succ = (dat3 V c).owesAt () t.castSucc from rfl,
    show (dat3 V c).after 6 t = k3_pay1 ((dat3 V c).after 0 t) ((dat3 V c).after 1 t) ((dat3 V c).after 2 t) ((dat3 V c).after 3 t) ((dat3 V c).after 4 t) ((dat3 V c).after 5 t) from rfl]
  show _ ⊢ wp _ _ _ (bodyAt3 t) _
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ _ _ _ _ _ _ _ _ _ _ _ _ _ _ _ ((dat3 V c).after 0 t) ((dat3 V c).after 1 t) ((dat3 V c).after 2 t) ((dat3 V c).after 3 t) ((dat3 V c).after 4 t) ((dat3 V c).after 5 t))
  iframe H0 H1 H2 H3 H4 H5
  isplitl [H6]; · iexists _; iexact H6
  iintro ⟨H0, H1, H2, H3, H4, H5, H6⟩
  iframe

end Cert.KernelIdeal.Hand

end
-- ==== Proof.Run.lean ====
import proofs.«406417_j47201690583086_1_alg».proof.Proof.Fold
import proofs.«406417_j47201690583086_1_alg».proof.Proof.Reg0
import proofs.«406417_j47201690583086_1_alg».proof.Proof.Reg1
import proofs.«406417_j47201690583086_1_alg».proof.Proof.Reg2
import proofs.«406417_j47201690583086_1_alg».proof.Proof.Reg2IO
import proofs.«406417_j47201690583086_1_alg».proof.Proof.Reg3

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

abbrev adm : (p : Fin 4) → (pcfgs (F := F) p).Adm := fun p => (cfgs p).toPCfg_adm
def pdats : (p : Fin 4) → (c : Dev nD) → Dat τ (Elt F) Unit ℕ (UR sig nD τ) ℕ (Pipeline.pin (pcfgs (F := F)) adm p) c
  | ⟨0, _⟩ => dat0 (Y1 m)
  | ⟨1, _⟩ => dat1 (Y5 m)
  | ⟨2, _⟩ => dat2 (Y7 m)
  | ⟨3, _⟩ => dat3 (Y9 m)
theorem pdats_std : ∀ p c, (∀ w, (pdats m p c).q w = fullShare) ∧ (∀ t, (pdats m p c).owed t = 0) ∧ ∀ t, (pdats m p c).recorded t = Set.univ
  | ⟨0, _⟩, _ | ⟨1, _⟩, _ | ⟨2, _⟩, _ | ⟨3, _⟩, _ => ⟨fun _ => rfl, fun _ => rfl, fun _ => rfl⟩
abbrev 𝒱₀ : Variants := Variants.none
abbrev L : GSem nD τ sig → Finset Unit := fun _ => ∅
abbrev lv : GSem nD τ sig → Unit → ℕ := fun _ _ => 0
/-- The part of the thread state no item changes. -/
abbrev R (c : Dev nD) : sProp 𝕄 := iprop((∃ r, prngReg c r) ∗ ∃ W, owes (c : Thread nD τ) (0 : CellTallies nD τ sig Unit) W)
/-- The thread state between two items: every unscoped buffer at `V`. -/
abbrev T (V : Valuation τ sig (Elt F)) (c : Dev nD) : sProp 𝕄 := iprop(StableHlo.held (c : Thread nD τ) (Pipeline.ucRefs τ sig) V ∗ R c)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- A region as a segment from `V` to `exitV`: its arrays leave the held buffers at entry and rejoin them at exit. -/
def reg {p : Fin 4} (lf : Pipeline.LaunchFacts (nD := nD) (τ := τ) cfgs p) (V : Dev nD → Valuation τ sig (Elt F))
    (hb : ∀ c, BodyObligation (pdats m p c) (defs₀ (F := F)) Variants.none () Set.univ)
    (hA : ∀ c w, (pdats m p c).A w = V c (Proc.devRef .tc (Pipeline.arrRef (cfgs p).spec w)))
    (hi : ∀ c, (Pipeline.ΦA (cfgs p).spec c : sProp 𝕄) ⊢ (pdats m p c).Φ 0)
    (ht : ∀ c, (pdats m p c).Φ (Fin.last _) ⊢ (Pipeline.ΦA (cfgs p).spec c : sProp 𝕄)) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p fun c => (pdats_std m p c).2.1
  pre c := T (V c) c
  post c := T (exitV (pdats m p c) (V c)) c
  X c := iprop(∃ r, prngReg c r)
  Y c := iprop(∃ r, prngReg c r)
  Z c := Pipeline.unscopedRest (cfgs p).spec c (atRefs V c)
  hentry c := by
    obtain ⟨hq, ho, hr⟩ := pdats_std m p c
    have hsplit := Pipeline.arrays_of_unscopedBufs (pcfgs (F := F)) adm (pdats m) lf.win lf.arr_whole c
      ((pdats m p c).share_full hq) (atRefs V c) (hA c)
    rw [Pipeline.unscopedBufs_held] at hsplit
    rw [Pipeline.ownSems0_none]; unfold Pipeline.Dat.owesAt Pipeline.owesWithin Pipeline.Dat.bound; rw [ho, hr]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · icases HO with ⟨%W, HO⟩; iexists W; isplitr; · ipureintro; exact fun _ _ => Or.inl trivial
      iexact HO
    isplitl [Hp]; · iexact Hp
    iexact Hrest
  hin c := by
    refine .trans ?_ (hi c)
    unfold Pipeline.ΦA
    iintro ⟨Hp, -, Hr⟩
    isplitl [Hr]; · iexact Hr
    iexact Hp
  hout c := by
    refine (ht c).trans ?_
    rw [Pipeline.ownSems0_none]; unfold Pipeline.ΦA
    iintro ⟨Hr, Hp⟩
    isplitl [Hp]; · iexact Hp
    isplitr; · iempintro
    iexact Hr
  hexit c := by
    obtain ⟨hq, ho, -⟩ := pdats_std m p c
    have hjoin := Pipeline.unscopedBufs_of_arrays (pcfgs (F := F)) adm lf.win lf.arr_whole c (pdats m) ((pdats m p c).share_full hq)
      (atRefs V c) (atRefs (fun c => exitV (pdats m p c) (V c)) c) ((pdats m p c).arrAt · (cfgs p).N)
      (fun w => (exitV_arr _ _ lf.win w).symm)
      fun b hb => Pipeline.withArrays_of_ne _ c _ _ b fun w e => hb (Finset.mem_image.mpr ⟨w, Finset.mem_univ _, e⟩)
    rw [Pipeline.unscopedBufs_held] at hjoin
    unfold Pipeline.Dat.owesAt Pipeline.owesWithin; rw [ho]
    iintro ⟨Ha, HO, HY, Hrest⟩
    imodintro
    isplitl [Ha Hrest]
    · iapply hjoin; isplitl [Ha] <;> iassumption
    isplitl [HY]; · iexact HY
    icases HO with ⟨%W, -, HO⟩; iexists W; iexact HO

abbrev segs : List (Pipeline.Seg (pcfgs (F := F)) adm (pdats m) () defs₀ 𝒱₀ L lv) :=
  [ .host (hseg hostOps0 hostOps0_sub hostOps0_fresh (X0 m)),
    .region (reg m launch0 (X1 m) (body_obligation0 _) (fun _ _ => rfl) (fun _ => .rfl) fun _ => .rfl),
    .host (hseg hostOps1 hostOps1_sub hostOps1_fresh (X2 m)),
    .host (hseg hostOps1_1 hostOps1_1_sub hostOps1_1_fresh (X3 m)),
    .host (hseg hostOps1_2 hostOps1_2_sub hostOps1_2_fresh (X4 m)),
    .region (reg m launch1 (X5 m) (body_obligation1 _) (fun _ _ => rfl) (fun _ => .rfl) fun _ => .rfl),
    .host (hseg hostOps2 hostOps2_sub hostOps2_fresh (X6 m)),
    .region (reg m launch2 (X7 m) (body_obligation2 _) (fun _ _ => rfl) (hin2 _) (hout2 _)),
    .host (hseg hostOps3 hostOps3_sub hostOps3_fresh (X8 m)),
    .region (reg m launch3 (X9 m) (body_obligation3 _) (fun _ _ => rfl) (fun _ => .rfl) fun _ => .rfl) ]
theorem main_run (c : Dev nD) : main (F := F) c = Pipeline.Seg.run (segs m) := (main_chain c).trans (by chain_rfl)

set_option backward.isDefEq.respectTransparency.types false in
/-- Every fair run of @main from `m` ends with each unscoped buffer at `X10`. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = X10 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => T (X0 m c) c)
    (Tₙ := fun c => iprop(StableHlo.held (c : Thread nD τ) (Pipeline.ucRefs τ sig) (X10 m c) ∗ ∃ r, prngReg c r))
    (hch := ⟨fun _ => .rfl, fun _ => .rfl, fun _ => .rfl, fun _ => .rfl, fun _ => .rfl, fun _ => .rfl, fun _ => .rfl, fun _ => .rfl,
      fun _ => .rfl, fun _ => .rfl, fun _ => sep_assoc'⟩)
    (hinit := by
      refine Pipeline.initEach L lv fun c => ?_
      rw [show unscopedBufs c (fun b => m ((c : Thread nD τ).loc b)) = StableHlo.held (c : Thread nD τ) (Pipeline.ucRefs τ sig) (X0 m c)
        from Pipeline.unscopedBufs_held c (X0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = X10 m c b)
    (hfin := fun c s' => by
      iintro ⟨⟨Hh, -⟩, HSI⟩
      unfold StableHlo.held
      imodintro
      iapply (pointsTo_read_all (Pipeline.ucRefs τ sig) (fun b => (((c : Thread nD τ)).1, b)) (X10 m c) s')
      isplitl [Hh] <;> iassumption)
    (hQ := fun s h c => h c)

end Cert.KernelIdeal.Hand

end
-- ==== Proof.Frame.lean ====
import proofs.«406417_j47201690583086_1_alg».proof.Proof.Run

noncomputable section

namespace Cert.KernelIdeal.Hand

open Idealize.ShloMosaic Idealize.ShloMosaic.TcCoe
open Idealize.SL.Sem
open Cert.KernelIdeal Cert.KernelIdeal.Gen

variable {F : FTy → Type} [FloatOps F]

variable (m : (ℓ : Loc nD τ sig) → Buf (Elt F) ℓ)

/-- Memory `s` holds every argument array of core `c` as launched. -/
abbrev ArgsKept (s : MemSt nD τ sig (Elt F)) (c : Dev nD) : Prop :=
  s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)
  ∧ s.mem ((c.tc : Thread nD τ).loc main_arg4) = m ((c.tc : Thread nD τ).loc main_arg4)
  ∧ s.mem ((c.tc : Thread nD τ).loc main_arg5) = m ((c.tc : Thread nD τ).loc main_arg5)
  ∧ s.mem ((c.tc : Thread nD τ).loc main_arg6) = m ((c.tc : Thread nD τ).loc main_arg6)
  ∧ s.mem ((c.tc : Thread nD τ).loc main_arg7) = m ((c.tc : Thread nD τ).loc main_arg7)
  ∧ s.mem ((c.tc : Thread nD τ).loc main_arg8) = m ((c.tc : Thread nD τ).loc main_arg8)
  ∧ s.mem ((c.tc : Thread nD τ).loc main_arg9) = m ((c.tc : Thread nD τ).loc main_arg9)
  ∧ s.mem ((c.tc : Thread nD τ).loc main_arg10) = m ((c.tc : Thread nD τ).loc main_arg10)

/-- Every fair run of @main ends with the result array at `X10` and every argument array as launched. -/
theorem run_value (ρ : Dev nD → PrngReg) : θ_run defs (onTc (τ := τ) (main (F := F))) ⟨m, fun _ => 0, ρ⟩ (fun r => ∀ c : Dev nD,
      r.2.mem ((c.tc : Thread nD τ).loc main_v22) = X10 m c (Proc.devRef .tc main_v22) ∧ ArgsKept m r.2 c) :=
  (θ_run defs _ _).mono (fun r h c =>
    have a (b : Ref sig .tc) (hu : ¬ (Proc.devRef .tc b : DevRef τ sig).isScoped) (hb : Unwritten b) :
        r.2.mem ((c.tc : Thread nD τ).loc b) = m ((c.tc : Thread nD τ).loc b) := (h c _ (mem_uc b hu)).trans (X10_arg m c b hb)
    ⟨h c _ (mem_uc main_v22 (by decide)), a main_arg0 (by decide) (by decide),
      a main_arg1 (by decide) (by decide),
      a main_arg2 (by decide) (by decide),
      a main_arg3 (by decide) (by decide),
      a main_arg4 (by decide) (by decide),
      a main_arg5 (by decide) (by decide),
      a main_arg6 (by decide) (by decide),
      a main_arg7 (by decide) (by decide),
      a main_arg8 (by decide) (by decide),
      a main_arg9 (by decide) (by decide),
      a main_arg10 (by decide) (by decide)⟩)
    (run_all m ρ)

theorem frame_args (ρ : Dev nD → PrngReg) : θ_run defs (onTc (τ := τ) (main (F := F))) ⟨m, fun _ => 0, ρ⟩ (fun r => ∀ c : Dev nD,
      ArgsKept m r.2 c) :=
  (θ_run defs _ _).mono (fun r h c => (h c).2) (run_value m ρ)

end Cert.KernelIdeal.Hand

end
-- ==== Proof.Bits.Dats.lean ====
import proofs.«406417_j47201690583086_1_alg».proof.Proof.Gen.Kernel.Launch
import proofs.«406417_j47201690583086_1_alg».proof.Proof.Gen.Kernel.Skeleton
import proofs.«406417_j47201690583086_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import Idealize.ShloMosaic.Lib.Pipeline.TableIdle

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => k0_pay2 (iblk0 V c 0 t) (iblk0 V c 1 t) (iblk0 V c 2 t)
    | ⟨8, _⟩ => k0_pay3 (iblk0 V c 0 t) (iblk0 V c 3 t) (iblk0 V c 4 t)
    | ⟨9, _⟩ => k0_pay4 (iblk0 V c 0 t) (iblk0 V c 5 t) (iblk0 V c 6 t)
  Φ _ := Pipeline.ΦA spec0 c
  q _ := fullShare
  owed _ := 0

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay1 (iblk1 V c 0 t) (iblk1 V c 1 t) (iblk1 V c 2 t)
  Φ _ := Pipeline.ΦA spec1 c
  q _ := fullShare
  owed _ := 0

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => k3_pay1 (iblk3 V c 0 t) (iblk3 V c 1 t) (iblk3 V c 2 t) (iblk3 V c 3 t) (iblk3 V c 4 t) (iblk3 V c 5 t)
  Φ _ := Pipeline.ΦA spec3 c
  q _ := fullShare
  owed _ := 0

def acc2 (c : Dev nD) : (n : ℕ) → n < cfg2.N → Vec F S1x64 .f32 × Vec F S1x64 .f32
  | 0, h => (k2_pay4 (iblk2 V c 0 ⟨0, h⟩) (iblk2 V c 1 ⟨0, h⟩) k2_pay1, k2_pay5 (iblk2 V c 0 ⟨0, h⟩) (iblk2 V c 1 ⟨0, h⟩) k2_pay2)
  | n + 1, h => (k2_pay4 (iblk2 V c 0 ⟨n + 1, h⟩) (iblk2 V c 1 ⟨n + 1, h⟩) (acc2 c n (Nat.lt_of_succ_lt h)).1,
      k2_pay5 (iblk2 V c 0 ⟨n + 1, h⟩) (iblk2 V c 1 ⟨n + 1, h⟩) (acc2 c n (Nat.lt_of_succ_lt h)).2)

theorem A_eq0 (c : Dev nD) (w : Fin cfg0.W) : (dat0 V c).A w = V c (Pipeline.arrRef spec0 w) := rfl
theorem A_eq1 (c : Dev nD) (w : Fin cfg1.W) : (dat1 V c).A w = V c (Pipeline.arrRef spec1 w) := rfl
theorem A_eq3 (c : Dev nD) (w : Fin cfg3.W) : (dat3 V c).A w = V c (Pipeline.arrRef spec3 w) := rfl

theorem after0_7 (c : Dev nD) (t : Fin cfg0.N) : (dat0 V c).after 7 t = k0_pay2 (iblk0 V c 0 t) (iblk0 V c 1 t) (iblk0 V c 2 t) := rfl
theorem after0_8 (c : Dev nD) (t : Fin cfg0.N) : (dat0 V c).after 8 t = k0_pay3 (iblk0 V c 0 t) (iblk0 V c 3 t) (iblk0 V c 4 t) := rfl
theorem after0_9 (c : Dev nD) (t : Fin cfg0.N) : (dat0 V c).after 9 t = k0_pay4 (iblk0 V c 0 t) (iblk0 V c 5 t) (iblk0 V c 6 t) := rfl
theorem after1_3 (c : Dev nD) (t : Fin cfg1.N) : (dat1 V c).after 3 t = k1_pay1 (iblk1 V c 0 t) (iblk1 V c 1 t) (iblk1 V c 2 t) := rfl
theorem after3_6 (c : Dev nD) (t : Fin cfg3.N) : (dat3 V c).after 6 t = k3_pay1 (iblk3 V c 0 t) (iblk3 V c 1 t) (iblk3 V c 2 t) (iblk3 V c 3 t) (iblk3 V c 4 t) (iblk3 V c 5 t) := rfl

theorem zeros_r2 : (![0, 0] : Fin 2 → Nat) = fun _ => 0 := by decide
theorem zeros_r1 : (![0] : Fin 1 → Nat) = fun _ => 0 := by decide

theorem load_whole_rep {κ : Kind} {sp : Space} {S : Shape} {e : EltTy} (v : View sig κ sp S e) {off : Fin S.rank → Nat}
    (h : off = fun _ => 0) (inb : ∀ a, off a + S.size a ≤ S.size a) (X : S.Idx → Elt F e) :
    v.readAt (Elt F) (Rect.unit off S.size inb).toLoadRect (v.rep X) = X := by
  rw [View.readAt_eq_ld, View.read_rep, View.ld_unit_zero h inb]

-- One store over the whole shape fixes every element, so what was there before does not matter.
theorem store_whole_rep (c : Thread nD τ) {sp : Space} {S : Shape} {e : EltTy} (m : Memref sig c.2.kind sp S e) (f : m.view.ty.Contents (Elt F))
    {off : Fin S.rank → Nat} (h : off = fun _ => 0) (inb : ∀ a, off a + S.size a ≤ S.size a) (w : S.Idx → Elt F e) :
    (m.view.loc c ↦[m.view.set]{fullShare} m.view.writes (Elt F) f [⟨Rect.unit off S.size inb, w⟩] : sProp 𝕄)
      ⊢ (m.view.loc c ↦[m.view.set]{fullShare} m.view.rep w : sProp 𝕄) := by
  rw [← owns_eq_rep]
  refine (owns_intro c m _ _).trans (Entails.of_eq ?_)
  rw [View.read_writes_eq_canon _ _ _ fun y => ⟨_, List.mem_singleton_self _, View.mem_set_unit_zero h inb y⟩,
    View.canon_unit_zero h inb]

end Cert.Kernel.Hand

end
-- ==== Proof.Bits.Dat2.lean ====
import proofs.«406417_j47201690583086_1_alg».proof.Proof.Bits.Dats

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev scM2_0 : Memref sig .tc .vmem S1x64 .f32 := Memref.whole cc2_scratch0
abbrev scM2_1 : Memref sig .tc .vmem S1x64 .f32 := Memref.whole cc2_scratch1

-- The two carried rows at `s`, beside everything else the region's own invariant holds.
def rows2 (c : Dev nD) (s : Vec F S1x64 .f32 × Vec F S1x64 .f32) : sProp 𝕄 :=
  iprop(iprop(iprop(owns (c : Thread nD τ) scM2_0 fullShare s.1 ∗ owns (c : Thread nD τ) scM2_1 fullShare s.2)
    ∗ Pipeline.scopedRestBut spec2 c [cc2_scratch0, cc2_scratch1]) ∗ (∃ r, prngReg c r))

-- Before a point the rows hold some `s`: anything at the first point, what `acc2` says point `n` left after point `n`.
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (acc2 V c t.val t.isLt).1
    | ⟨3, _⟩ => (acc2 V c t.val t.isLt).2
  Φ t := iprop(∃ s, ⌜∀ n hn, t.val = n + 1 → s = acc2 V c n hn⌝ ∗ rows2 c s)
  q _ := fullShare
  owed _ := 0

theorem A_eq2 (c : Dev nD) (w : Fin cfg2.W) : (dat2 V c).A w = V c (Pipeline.arrRef spec2 w) := by dsimp only [dat2]

theorem after2_2 (c : Dev nD) (t : Fin cfg2.N) : (dat2 V c).after 2 t = (acc2 V c t.val t.isLt).1 := by dsimp only [dat2]
theorem after2_3 (c : Dev nD) (t : Fin cfg2.N) : (dat2 V c).after 3 t = (acc2 V c t.val t.isLt).2 := by dsimp only [dat2]

end Cert.Kernel.Hand

end
-- ==== Proof.Bits.Fold.lean ====
import proofs.«406417_j47201690583086_1_alg».proof.Proof.Gen.Kernel.Regions
import Idealize.ShloMosaic.Lib.Pipeline.FrameSuffix
import proofs.«406417_j47201690583086_1_alg».proof.Proof.Bits.Dats
import proofs.«406417_j47201690583086_1_alg».proof.Proof.Bits.Dat2

noncomputable section

namespace Cert.Kernel.Hand

open Idealize.ShloMosaic Idealize.ShloMosaic.TcCoe
open Idealize.ShloMosaic.Pipeline (Dat Cfg)
open Cert.Kernel Cert.Kernel.Gen

variable {F : FTy → Type} [FloatOps F]

section Region

variable {cfg : Cfg sig Λ₀} {c : Dev nD} (d : Dat τ (Elt F) Unit ℕ (UR sig nD τ) ℕ cfg c) (V : Valuation τ sig (Elt F))

/-- The buffers after a region entered at `V`: each window's array at its final contents, every other buffer unchanged. -/
def exitV : Valuation τ sig (Elt F) := Pipeline.withArrays cfg.spec c V fun w => d.arrAt w cfg.N

variable (hw : Pipeline.WinFacts cfg.spec)
include hw

theorem exitV_arr (w : Fin cfg.W) : exitV d V (Proc.devRef .tc (Pipeline.arrRef cfg.spec w)) = d.arrAt w cfg.N :=
  Pipeline.withArrays_arr cfg.spec hw.arr_inj c _ _ w

/-- An input window's array keeps its entry contents, and `exitV` changes no buffer that is not a window's array. -/
theorem exitV_keep (hA : ∀ w, d.A w = V (Proc.devRef .tc (Pipeline.arrRef cfg.spec w))) {O : List (Ref sig .tc)}
    (hO : ∀ w, (cfg.win w).isOut = true → Pipeline.arrRef cfg.spec w ∈ O) (b : Ref sig .tc) (hb : b ∉ O) :
    exitV d V (Proc.devRef .tc b) = V (Proc.devRef .tc b) := by
  by_cases h : ∃ w, Pipeline.arrRef cfg.spec w = b
  · obtain ⟨w, rfl⟩ := h
    exact (exitV_arr d V hw w).trans ((d.arrAt_in w (Bool.eq_false_iff.mpr fun hq => hb (hO w hq)) _).trans (hA w))
  · exact Pipeline.withArrays_of_ne cfg.spec c _ _ b fun w e => h ⟨w, e⟩

end Region

variable (m : (ℓ : Loc nD τ sig) → Buf (Elt F) ℓ)

/-- A valuation read at the core's references. -/
abbrev atRefs (X : Dev nD → Valuation τ sig (Elt F)) (c : Dev nD) (b : Ref sig .tc) : Buf (Elt F) ((c : Thread nD τ).loc b) := X c b

abbrev X0 : Dev nD → Valuation τ sig (Elt F) := fun c b => m (c, b)
abbrev X1 : Dev nD → Valuation τ sig (Elt F) := fun c => StableHlo.after hostOps0 (X0 m c)
abbrev Y1 := atRefs (X1 m)
def X2 (c : Dev nD) : Valuation τ sig (Elt F) := exitV (dat0 (Y1 m) c) (X1 m c)
abbrev X3 : Dev nD → Valuation τ sig (Elt F) := fun c => StableHlo.after hostOps1 (X2 m c)
abbrev X4 : Dev nD → Valuation τ sig (Elt F) := fun c => StableHlo.after hostOps1_1 (X3 m c)
abbrev X5 : Dev nD → Valuation τ sig (Elt F) := fun c => StableHlo.after hostOps1_2 (X4 m c)
abbrev Y5 := atRefs (X5 m)
def X6 (c : Dev nD) : Valuation τ sig (Elt F) := exitV (dat1 (Y5 m) c) (X5 m c)
abbrev X7 : Dev nD → Valuation τ sig (Elt F) := fun c => StableHlo.after hostOps2 (X6 m c)
abbrev Y7 := atRefs (X7 m)
def X8 (c : Dev nD) : Valuation τ sig (Elt F) := exitV (dat2 (Y7 m) c) (X7 m c)
abbrev X9 : Dev nD → Valuation τ sig (Elt F) := fun c => StableHlo.after hostOps3 (X8 m c)
abbrev Y9 := atRefs (X9 m)
def X10 (c : Dev nD) : Valuation τ sig (Elt F) := exitV (dat3 (Y9 m) c) (X9 m c)

theorem X2_arr (c : Dev nD) (w : Fin cfg0.W) :
    X2 m c (Proc.devRef .tc (Pipeline.arrRef spec0 w)) = (dat0 (Y1 m) c).arrAt w cfg0.N := exitV_arr _ _ launch0.win w
theorem X6_arr (c : Dev nD) (w : Fin cfg1.W) :
    X6 m c (Proc.devRef .tc (Pipeline.arrRef spec1 w)) = (dat1 (Y5 m) c).arrAt w cfg1.N := exitV_arr _ _ launch1.win w
theorem X8_arr (c : Dev nD) (w : Fin cfg2.W) :
    X8 m c (Proc.devRef .tc (Pipeline.arrRef spec2 w)) = (dat2 (Y7 m) c).arrAt w cfg2.N := exitV_arr _ _ launch2.win w
theorem X10_arr (c : Dev nD) (w : Fin cfg3.W) :
    X10 m c (Proc.devRef .tc (Pipeline.arrRef spec3 w)) = (dat3 (Y9 m) c).arrAt w cfg3.N := exitV_arr _ _ launch3.win w

theorem X1_keep (c : Dev nD) (r : Ref sig .tc) (h : r ∉ hostOps0_W) : X1 m c (Proc.devRef .tc r) = X0 m c (Proc.devRef .tc r) :=
  StableHlo.after_of_writes_sub hostOps0 _ hostOps0_writes h
theorem X2_keep (c : Dev nD) (b : Ref sig .tc) (hb : b ∉ ([main_v4_0, main_v4_1, main_v4_2] : List (Ref sig .tc))) :
    X2 m c (Proc.devRef .tc b) = X1 m c (Proc.devRef .tc b) := exitV_keep _ _ launch0.win (A_eq0 _ c) (by decide) b hb
theorem X3_keep (c : Dev nD) (r : Ref sig .tc) (h : r ∉ hostOps1_W) : X3 m c (Proc.devRef .tc r) = X2 m c (Proc.devRef .tc r) :=
  StableHlo.after_of_writes_sub hostOps1 _ hostOps1_writes h
theorem X4_keep (c : Dev nD) (r : Ref sig .tc) (h : r ∉ hostOps1_1_W) : X4 m c (Proc.devRef .tc r) = X3 m c (Proc.devRef .tc r) :=
  StableHlo.after_of_writes_sub hostOps1_1 _ hostOps1_1_writes h
theorem X5_keep (c : Dev nD) (r : Ref sig .tc) (h : r ∉ hostOps1_2_W) : X5 m c (Proc.devRef .tc r) = X4 m c (Proc.devRef .tc r) :=
  StableHlo.after_of_writes_sub hostOps1_2 _ hostOps1_2_writes h
theorem X6_keep (c : Dev nD) (b : Ref sig .tc) (hb : b ∉ ([main_v8] : List (Ref sig .tc))) :
    X6 m c (Proc.devRef .tc b) = X5 m c (Proc.devRef .tc b) := exitV_keep _ _ launch1.win (A_eq1 _ c) (by decide) b hb
theorem X7_keep (c : Dev nD) (r : Ref sig .tc) (h : r ∉ hostOps2_W) : X7 m c (Proc.devRef .tc r) = X6 m c (Proc.devRef .tc r) :=
  StableHlo.after_of_writes_sub hostOps2 _ hostOps2_writes h
theorem X8_keep (c : Dev nD) (b : Ref sig .tc) (hb : b ∉ ([main_v12_0, main_v12_1] : List (Ref sig .tc))) :
    X8 m c (Proc.devRef .tc b) = X7 m c (Proc.devRef .tc b) := exitV_keep _ _ launch2.win (A_eq2 _ c) (by decide) b hb
theorem X9_keep (c : Dev nD) (r : Ref sig .tc) (h : r ∉ hostOps3_W) : X9 m c (Proc.devRef .tc r) = X8 m c (Proc.devRef .tc r) :=
  StableHlo.after_of_writes_sub hostOps3 _ hostOps3_writes h
theorem X10_keep (c : Dev nD) (b : Ref sig .tc) (hb : b ∉ ([main_v22] : List (Ref sig .tc))) :
    X10 m c (Proc.devRef .tc b) = X9 m c (Proc.devRef .tc b) := exitV_keep _ _ launch3.win (A_eq3 _ c) (by decide) b hb

/-- No item of @main writes `r`: no host stretch does, and no region has it as an output. -/
abbrev Unwritten (r : Ref sig .tc) : Prop :=
  r ∉ hostOps0_W ∧ r ∉ [main_v4_0, main_v4_1, main_v4_2] ∧ r ∉ hostOps1_W ∧ r ∉ hostOps1_1_W ∧ r ∉ hostOps1_2_W ∧ r ∉ [main_v8]
    ∧ r ∉ hostOps2_W ∧ r ∉ [main_v12_0, main_v12_1] ∧ r ∉ hostOps3_W ∧ r ∉ [main_v22]

theorem X10_arg (c : Dev nD) (r : Ref sig .tc) (h : Unwritten r) : X10 m c (Proc.devRef .tc r) = m ((c : Thread nD τ).loc r) := by
  obtain ⟨h0, h1, h2, h3, h4, h5, h6, h7, h8, h9⟩ := h
  exact (X10_keep m c r h9).trans <| (X9_keep m c r h8).trans <| (X8_keep m c r h7).trans <| (X7_keep m c r h6).trans <|
    (X6_keep m c r h5).trans <| (X5_keep m c r h4).trans <| (X4_keep m c r h3).trans <| (X3_keep m c r h2).trans <|
    (X2_keep m c r h1).trans <| X1_keep m c r h0

end Cert.Kernel.Hand

end
-- ==== Proof.Bits.Reg0.lean ====
import proofs.«406417_j47201690583086_1_alg».proof.Proof.Bits.Dats

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before0 (c : Dev nD) (t : Fin cfg0.N) : (∀ d, (dat0 V c).before 0 t d = (dat0 V c).after 0 t)
    ∧ (∀ d, (dat0 V c).before 1 t d = (dat0 V c).after 1 t)
    ∧ (∀ d, (dat0 V c).before 2 t d = (dat0 V c).after 2 t)
    ∧ (∀ d, (dat0 V c).before 3 t d = (dat0 V c).after 3 t)
    ∧ (∀ d, (dat0 V c).before 4 t d = (dat0 V c).after 4 t)
    ∧ (∀ d, (dat0 V c).before 5 t d = (dat0 V c).after 5 t)
    ∧ ∀ d, (dat0 V c).before 6 t d = (dat0 V c).after 6 t := by
  refine ⟨?_, ?_, ?_, ?_, ?_, ?_, ?_⟩ <;>
    exact fun d => ((dat0 V c).before_in_eq_fetched _ rfl (fun _ => rfl) (fun _ _ _ => rfl) (fun _ => rfl) t d).trans rfl

set_option maxHeartbeats 1000000 in
theorem sound_kernel0 (c : Dev nD) (E : Set ℕ) (i : grid0.Coords) (arg1 : Memref sig .tc .vmem S5000x64 .f32) (harg1 : arg1.IsWhole) (arg2 : Memref sig .tc .vmem S64x64 .f32) (harg2 : arg2.IsWhole) (arg3 : Memref sig .tc .vmem S64 .f32) (harg3 : arg3.IsWhole) (arg4 : Memref sig .tc .vmem S64x64 .f32) (harg4 : arg4.IsWhole) (arg5 : Memref sig .tc .vmem S64 .f32) (harg5 : arg5.IsWhole) (arg6 : Memref sig .tc .vmem S64x64 .f32) (harg6 : arg6.IsWhole) (arg7 : Memref sig .tc .vmem S64 .f32) (harg7 : arg7.IsWhole) (arg8 : Memref sig .tc .vmem S5000x64 .f32) (harg8 : arg8.IsWhole) (arg9 : Memref sig .tc .vmem S5000x64 .f32) (harg9 : arg9.IsWhole) (arg10 : Memref sig .tc .vmem S5000x64 .f32) (harg10 : arg10.IsWhole)
    (x0 : Vec F S5000x64 .f32) (x1 : Vec F S64x64 .f32) (x2 : Vec F S64 .f32) (x3 : Vec F S64x64 .f32) (x4 : Vec F S64 .f32) (x5 : Vec F S64x64 .f32) (x6 : Vec F S64 .f32) (K : PUnit → sProp 𝕄) :
    iprop(owns c arg1 fullShare x0 ∗ owns c arg2 fullShare x1 ∗ owns c arg3 fullShare x2 ∗ owns c arg4 fullShare x3 ∗ owns c arg5 fullShare x4 ∗ owns c arg6 fullShare x5 ∗ owns c arg7 fullShare x6 ∗ (∃ d, owns c arg8 fullShare d) ∗ (∃ d, owns c arg9 fullShare d) ∗ (∃ d, owns c arg10 fullShare d)
        ∗ (iprop(owns c arg1 fullShare x0 ∗ owns c arg2 fullShare x1 ∗ owns c arg3 fullShare x2 ∗ owns c arg4 fullShare x3 ∗ owns c arg5 fullShare x4 ∗ owns c arg6 fullShare x5 ∗ owns c arg7 fullShare x6 ∗ owns c arg8 fullShare (k0_pay2 x0 x1 x2) ∗ owns c arg9 fullShare (k0_pay3 x0 x3 x4) ∗ owns c arg10 fullShare (k0_pay4 x0 x5 x6)) -∗ K ⟨⟩))
      ⊢ wp frame (wpE (defs₀ (F := F)) Variants.none c none) E (cc0__proj_kernel i arg1 harg1 arg2 harg2 arg3 harg3 arg4 harg4 arg5 harg5 arg6 harg6 arg7 harg7 arg8 harg8 arg9 harg9 arg10 harg10) K := by
  simp only [cc0__proj_kernel_eq_skeleton, owns_eq_rep]; unfold cc0__proj_kernel_skel
  iintro ⟨H0, H1, H2, H3, H4, H5, H6, ⟨%d0, H7⟩, ⟨%d1, H8⟩, ⟨%d2, H9⟩, Hk⟩
  sl_exec
  sl_step
  iapply Hk
  iframe H0 H1 H2 H3 H4 H5 H6
  simp only [load_whole_rep (S := S5000x64) _ zeros_r2, load_whole_rep (S := S64x64) _ zeros_r2, load_whole_rep (S := S64) _ zeros_r1]
  isplitl [H7]; · iapply (store_whole_rep (S := S5000x64) _ _ _ zeros_r2); iexact H7
  isplitl [H8]; · iapply (store_whole_rep (S := S5000x64) _ _ _ zeros_r2); iexact H8
  iapply (store_whole_rep (S := S5000x64) _ _ _ zeros_r2); iexact H9

theorem body_obligation0 (c : Dev nD) : BodyObligation (dat0 (F := F) V c) (defs₀ (F := F)) Variants.none () Set.univ := fun t => by
  rw [bigSep_W0, bigSep_W0]
  obtain ⟨b0, b1, b2, b3, b4, b5, b6⟩ := before0 V c t
  simp only [b0, b1, b2, b3, b4, b5, b6]
  rw [show (dat0 V c).Φ t.succ = (dat0 V c).Φ t.castSucc from rfl,
    show (dat0 V c).owesAt () t.succ = (dat0 V c).owesAt () t.castSucc from rfl,
    show (dat0 V c).after 7 t = k0_pay2 ((dat0 V c).after 0 t) ((dat0 V c).after 1 t) ((dat0 V c).after 2 t) from rfl,
    show (dat0 V c).after 8 t = k0_pay3 ((dat0 V c).after 0 t) ((dat0 V c).after 3 t) ((dat0 V c).after 4 t) from rfl,
    show (dat0 V c).after 9 t = k0_pay4 ((dat0 V c).after 0 t) ((dat0 V c).after 5 t) ((dat0 V c).after 6 t) from rfl]
  show _ ⊢ wp _ _ _ (bodyAt0 t) _
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ ((dat0 V c).after 0 t) ((dat0 V c).after 1 t) ((dat0 V c).after 2 t) ((dat0 V c).after 3 t) ((dat0 V c).after 4 t) ((dat0 V c).after 5 t) ((dat0 V c).after 6 t))
  iframe H0 H1 H2 H3 H4 H5 H6
  isplitl [H7]; · iexists _; iexact H7
  isplitl [H8]; · iexists _; iexact H8
  isplitl [H9]; · iexists _; iexact H9
  iintro ⟨H0, H1, H2, H3, H4, H5, H6, H7, H8, H9⟩
  iframe

end Cert.Kernel.Hand

end
-- ==== Proof.Bits.Reg1.lean ====
import proofs.«406417_j47201690583086_1_alg».proof.Proof.Bits.Dats

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before1 (c : Dev nD) (t : Fin cfg1.N) : (∀ d, (dat1 V c).before 0 t d = (dat1 V c).after 0 t)
    ∧ (∀ d, (dat1 V c).before 1 t d = (dat1 V c).after 1 t)
    ∧ ∀ d, (dat1 V c).before 2 t d = (dat1 V c).after 2 t := by
  refine ⟨?_, ?_, ?_⟩ <;>
    exact fun d => ((dat1 V c).before_in_eq_fetched _ rfl (fun _ => rfl) (fun _ _ _ => rfl) (fun _ => rfl) t d).trans rfl

set_option maxHeartbeats 1000000 in
theorem sound_kernel1 (c : Dev nD) (E : Set ℕ) (i : grid1.Coords) (arg0 : Memref sig .tc .vmem S8000x64 .f32) (harg0 : arg0.IsWhole) (arg1 : Memref sig .tc .vmem S8000x64 .f32) (harg1 : arg1.IsWhole) (arg2 : Memref sig .tc .vmem S8000x64 .f32) (harg2 : arg2.IsWhole) (arg3 : Memref sig .tc .vmem S8000x64 .f32) (harg3 : arg3.IsWhole)
    (x0 x1 x2 : Vec F S8000x64 .f32) (K : PUnit → sProp 𝕄) :
    iprop(owns c arg0 fullShare x0 ∗ owns c arg1 fullShare x1 ∗ owns c arg2 fullShare x2 ∗ (∃ d, owns c arg3 fullShare d)
        ∗ (iprop(owns c arg0 fullShare x0 ∗ owns c arg1 fullShare x1 ∗ owns c arg2 fullShare x2 ∗ owns c arg3 fullShare (k1_pay1 x0 x1 x2)) -∗ K ⟨⟩))
      ⊢ wp frame (wpE (defs₀ (F := F)) Variants.none c none) E (cc1__edge_gate_kernel i arg0 harg0 arg1 harg1 arg2 harg2 arg3 harg3) K := by
  simp only [cc1__edge_gate_kernel_eq_skeleton, owns_eq_rep]; unfold cc1__edge_gate_kernel_skel
  iintro ⟨H0, H1, H2, ⟨%d0, H3⟩, Hk⟩
  sl_exec
  sl_step
  iapply Hk
  iframe H0 H1 H2
  simp only [load_whole_rep (S := S8000x64) _ zeros_r2]
  iapply (store_whole_rep (S := S8000x64) _ _ _ zeros_r2); iexact H3

theorem body_obligation1 (c : Dev nD) : BodyObligation (dat1 (F := F) V c) (defs₀ (F := F)) Variants.none () Set.univ := fun t => by
  rw [bigSep_W1, bigSep_W1]
  obtain ⟨b0, b1, b2⟩ := before1 V c t
  simp only [b0, b1, b2]
  rw [show (dat1 V c).Φ t.succ = (dat1 V c).Φ t.castSucc from rfl,
    show (dat1 V c).owesAt () t.succ = (dat1 V c).owesAt () t.castSucc from rfl,
    show (dat1 V c).after 3 t = k1_pay1 ((dat1 V c).after 0 t) ((dat1 V c).after 1 t) ((dat1 V c).after 2 t) from rfl]
  show _ ⊢ wp _ _ _ (bodyAt1 t) _
  iintro ⟨HΦ, Ho, ⟨%d0, H0⟩, ⟨%d1, H1⟩, ⟨%d2, H2⟩, ⟨%d3, H3⟩⟩
  iapply (sound_kernel1 c Set.univ _ _ _ _ _ _ _ _ _ ((dat1 V c).after 0 t) ((dat1 V c).after 1 t) ((dat1 V c).after 2 t))
  iframe H0 H1 H2
  isplitl [H3]; · iexists _; iexact H3
  iintro ⟨H0, H1, H2, H3⟩
  iframe

end Cert.Kernel.Hand

end
-- ==== Proof.Bits.Reg2.lean ====
import proofs.«406417_j47201690583086_1_alg».proof.Proof.Bits.Dat2

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond2_0 (i : grid2.Coords) : Prop := (Scalar.cmpi .ne (Scalar.extui (Scalar.cmpi .eq (BitVec.ofNat 32 (i 0).val) 0#32)) 0#32) = 1#1
abbrev cond2_1 (i : grid2.Coords) : Prop := k2_cond2 i = 1#1

section Whole

variable {sig' : RefSig} {κ' : Kind} {sp' : Space} {Val : EltTy → Type} {S : Shape} {e : EltTy} (v : View sig' κ' sp' S e) (f : v.ty.Contents Val)
  (off : Fin S.rank → ℕ) (inb : ∀ a, off a + S.size a ≤ S.size a) (hoff : ∀ a, off a = 0)
include hoff

-- Offset zero, stride one, the shape's own sizes: the rectangle is the identity on indices.
theorem unit_whole_idx (y : S.Idx) : (Rect.unit (s := S) off S.size inb).idx y = y :=
  funext fun a => Fin.ext (by simp only [LoadRect.idx_apply, Rect.off_unit, Rect.stride_unit, hoff a]; omega)

theorem readAt_unit_whole : v.readAt Val (Rect.unit (s := S) off S.size inb).toLoadRect f = v.read Val f := by
  funext y
  show v.read Val f ((Rect.unit (s := S) off S.size inb).idx y) = v.read Val f y
  rw [unit_whole_idx off inb hoff y]

theorem read_writes_unit_whole (p : S.Idx → Val e) (L : List (View.Piece Val S e)) :
    v.read Val (v.writes Val f (⟨Rect.unit (s := S) off S.size inb, p⟩ :: L)) = p := by
  funext y
  have h := View.read_writes_cons_emb (v := v) (f := f) (Rect.unit (s := S) off S.size inb) p L y
  rwa [show (Rect.unit (s := S) off S.size inb).emb y = y from unit_whole_idx off inb hoff y] at h

theorem read_guard_unit_whole (p : S.Idx → Val e) (P : Prop) [Decidable P] :
    v.read Val (if _ : P then v.writes Val f [⟨Rect.unit (s := S) off S.size inb, p⟩] else f) = if P then p else v.read Val f := by
  by_cases h : P
  · rw [dif_pos h, if_pos h]; exact read_writes_unit_whole v f off inb hoff p []
  · rw [dif_neg h, if_neg h]

end Whole

theorem off2_zero : ∀ a : Fin 2, (![0, 0] : Fin 2 → ℕ) a = 0 := Fin.forall_fin_two.mpr ⟨rfl, rfl⟩
theorem off1_zero : ∀ a : Fin 1, (![0] : Fin 1 → ℕ) a = 0 := Fin.forall_fin_one.mpr rfl

-- What the two rows hold after the body at coordinates `i`, having held `s0`, `s1` before it.
def step2 (i : grid2.Coords) (x0 : Vec F S5000x64 .f32) (x1 : Vec F S64 .f32) (s0 s1 : Vec F S1x64 .f32) : Vec F S1x64 .f32 × Vec F S1x64 .f32 :=
  (k2_pay4 x0 x1 (if cond2_0 i then k2_pay1 else s0), k2_pay5 x0 x1 (if cond2_0 i then k2_pay2 else s1))

section Kernel

variable (c : Dev nD) (arg1 : Memref sig .tc .vmem S5000x64 .f32) (arg2 : Memref sig .tc .vmem S64 .f32) (arg3 arg4 arg5 arg6 : Memref sig .tc .vmem S1x64 .f32)

def held2 (x0 : Vec F S5000x64 .f32) (x1 : Vec F S64 .f32) (o2 o3 r0 r1 : Vec F S1x64 .f32) : sProp 𝕄 :=
  iprop(owns (c : Thread nD τ) arg1 fullShare x0 ∗ owns (c : Thread nD τ) arg2 fullShare x1 ∗ owns (c : Thread nD τ) arg3 fullShare o2
    ∗ owns (c : Thread nD τ) arg4 fullShare o3 ∗ owns (c : Thread nD τ) arg5 fullShare r0 ∗ owns (c : Thread nD τ) arg6 fullShare r1)

-- Both conditionals are left open: the rows are reset where the first holds, and copied out where the second does.
theorem sound_kernel2 (E : Set ℕ) (i : grid2.Coords) (harg1 : arg1.IsWhole) (harg2 : arg2.IsWhole) (harg3 : arg3.IsWhole) (harg4 : arg4.IsWhole)
    (harg5 : arg5.IsWhole) (harg6 : arg6.IsWhole) (x0 : Vec F S5000x64 .f32) (x1 : Vec F S64 .f32) (d2 d3 s0 s1 : Vec F S1x64 .f32) (K : PUnit → sProp 𝕄) :
    iprop(held2 c arg1 arg2 arg3 arg4 arg5 arg6 x0 x1 d2 d3 s0 s1
        ∗ (held2 c arg1 arg2 arg3 arg4 arg5 arg6 x0 x1 (if cond2_1 i then (step2 i x0 x1 s0 s1).1 else d2) (if cond2_1 i then (step2 i x0 x1 s0 s1).2 else d3)
            (step2 i x0 x1 s0 s1).1 (step2 i x0 x1 s0 s1).2 -∗ K ⟨⟩))
      ⊢ wp frame (wpE (defs₀ (F := F)) Variants.none c none) E (cc2__stats_kernel i arg1 harg1 arg2 harg2 arg3 harg3 arg4 harg4 arg5 harg5 arg6 harg6) K := by
  simp only [cc2__stats_kernel_eq_skeleton]; unfold cc2__stats_kernel_skel held2 owns
  iintro ⟨⟨⟨%f0, %hf0, H0⟩, ⟨%f1, %hf1, H1⟩, ⟨%f2, %hf2, H2⟩, ⟨%f3, %hf3, H3⟩, ⟨%f4, %hf4, H4⟩, %f5, %hf5, H5⟩, Hk⟩
  subst hf0 hf1 hf2 hf3 hf4 hf5
  sl_exec
  sl_step
  iapply Hk
  isplitl [H0]
  on_goal 2 => isplitl [H1]
  on_goal 3 => isplitl [H2]
  on_goal 4 => isplitl [H3]
  on_goal 5 => isplitl [H4]
  all_goals
    iexists _; isplitr; swap; iassumption
    ipureintro
    try delta sound_kernel2.sl.v27 sound_kernel2.sl.v29 sound_kernel2.sl.H4_1 sound_kernel2.sl.H5_1 sound_kernel2.sl.v9 sound_kernel2.sl.v16 sound_kernel2.sl.v2 sound_kernel2.sl.v1 sound_kernel2.sl.v0
    simp only [step2, View.readCov, readAt_unit_whole (S := S5000x64) _ _ _ _ off2_zero, readAt_unit_whole (S := S64) _ _ _ _ off1_zero,
      readAt_unit_whole (S := S1x64) _ _ _ _ off2_zero, read_writes_unit_whole (S := S1x64) _ _ _ _ off2_zero, read_guard_unit_whole (S := S1x64) _ _ _ _ off2_zero]

end Kernel

theorem hcond2_0 : ∀ t : Fin cfg2.N, cond2_0 (grid2.coords t) ↔ t.val = 0 := by decide +kernel

theorem idle2 : ∀ (t : Fin cfg2.N) (w : Fin cfg2.W), 2 ≤ w.val → ¬cond2_1 (grid2.coords t) → cfg2.idle w (grid2.coords t) = true ∧ (cfg2.win w).flush t = false := by decide +kernel
theorem live2 : ∀ (t : Fin cfg2.N) (w : Fin cfg2.W), cond2_1 (grid2.coords t) → cfg2.idle w (grid2.coords t) = false := by decide +kernel

theorem before2_in (c : Dev nD) (t : Fin cfg2.N) :
    (∀ d, (dat2 V c).before 0 t d = iblk2 V c 0 t) ∧ ∀ d, (dat2 V c).before 1 t d = iblk2 V c 1 t := by
  constructor <;> intro d <;>
  exact ((dat2 V c).before_in_eq_fetched _ rfl (fun _ => rfl) (fun _ _ _ => rfl) (fun t => by unfold Dat.blockOf; dsimp only [dat2, iblk2]; try rfl) t d).trans
    (by unfold Dat.fetched Dat.blockOf iblk2; rw [A_eq2]; try rfl)

theorem acc2_step (c : Dev nD) (t : Fin cfg2.N) (s) (hs : ∀ n hn, t.val = n + 1 → s = acc2 V c n hn) :
    acc2 V c t.val t.isLt = step2 (grid2.coords t) (iblk2 V c 0 t) (iblk2 V c 1 t) s.1 s.2 := by
  have h := hcond2_0 t
  unfold step2
  obtain ⟨n, hn⟩ := t
  cases n with
  | zero => rw [if_pos (h.mpr rfl), if_pos (h.mpr rfl)]; rfl
  | succ n => rw [if_neg (mt h.mp n.succ_ne_zero), if_neg (mt h.mp n.succ_ne_zero), hs n (Nat.lt_of_succ_lt hn) rfl]; rfl

theorem leaves2_out (c : Dev nD) (t : Fin cfg2.N) (w : Fin cfg2.W) (hw : 2 ≤ w.val) (d) :
    owns (c : Thread nD τ) ((cfg2.win w).stage (cfg2.slots t w)) fullShare (if cond2_1 (grid2.coords t) then (dat2 V c).after w t else (dat2 V c).before w t d)
      ⊢ (dat2 V c).leavesExact w t := by
  by_cases h : cond2_1 (grid2.coords t)
  · rw [if_pos h]; unfold Dat.leavesExact; rw [live2 t w h]
  · rw [if_neg h, Dat.leavesExact_idle _ w t (idle2 t w hw h).1 (idle2 t w hw h).2]
    iintro H; iexists d; iexact H

theorem body_obligation2 (c : Dev nD) : BodyObligation (dat2 (F := F) V c) (defs₀ (F := F)) Variants.none () Set.univ := fun t => by
  rw [bigSep_W2, bigSep_W2]
  change iprop(iprop(∃ s, ⌜∀ n hn, t.val = n + 1 → s = acc2 V c n hn⌝ ∗ rows2 c s) ∗ _ ∗ _ ∗ _ ∗ _ ∗ _)
    ⊢ wp frame _ Set.univ (bodyAt2 t) fun _ => iprop(iprop(∃ s, ⌜∀ n hn, t.val + 1 = n + 1 → s = acc2 V c n hn⌝ ∗ rows2 c s) ∗ (dat2 V c).owesAt () t.castSucc
      ∗ owns (c : Thread nD τ) (st2_0 t) fullShare (iblk2 V c 0 t) ∗ owns (c : Thread nD τ) (st2_1 t) fullShare (iblk2 V c 1 t) ∗ (dat2 V c).leavesExact 2 t ∗ (dat2 V c).leavesExact 3 t)
  simp only [(before2_in V c t).1, (before2_in V c t).2]
  unfold rows2
  iintro ⟨⟨%s, %hs, ⟨⟨HS0, HS1⟩, HR⟩, Hg⟩, Ho, ⟨%d0, H0⟩, ⟨%d1, H1⟩, ⟨%d2, H2⟩, ⟨%d3, H3⟩⟩
  iapply (sound_kernel2 c _ _ _ _ _ _ Set.univ (grid2.coords t) _ _ _ _ _ _ (iblk2 V c 0 t) (iblk2 V c 1 t) ((dat2 V c).before 2 t d2) ((dat2 V c).before 3 t d3) s.1 s.2 _)
  unfold held2
  iframe H0 H1 H2 H3 HS0 HS1
  rw [← acc2_step V c t s hs]
  iintro ⟨H0, H1, H2, H3, HS0, HS1⟩
  isplitl [HS0 HS1 HR Hg]
  · iexists (acc2 V c t.val t.isLt); isplitr; · ipureintro; exact fun n hn h => by cases h; rfl
    iframe
  iframe Ho H0 H1
  isplitl [H2]
  · iapply (leaves2_out V c t 2 (by decide) d2); rw [after2_2]; iexact H2
  iapply (leaves2_out V c t 3 (by decide) d3); rw [after2_3]; iexact H3

end Cert.Kernel.Hand

end
-- ==== Proof.Bits.Reg2IO.lean ====
import proofs.«406417_j47201690583086_1_alg».proof.Proof.Bits.Dat2

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

-- The region's own invariant with the two carried rows named, each at some contents.
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
          ∗ Pipeline.scopedRestBut spec2 c [cc2_scratch0, cc2_scratch1]) ∗ (∃ r, prngReg c r)) := by
  unfold Pipeline.ΦA; rw [scopedRest2_split]; simp only [scM2_0, scM2_1, owns_whole]; try rfl

theorem hin2 (c : Dev nD) : Pipeline.ΦA spec2 c ⊢ (dat2 V c).Φ 0 := by
  rw [PhiA2_eq]; dsimp only [dat2, rows2]
  iintro ⟨⟨⟨⟨%d0, H0⟩, %d1, H1⟩, HR⟩, Hg⟩
  iexists (d0, d1); isplitr; · ipureintro; exact fun n _ h => absurd h n.succ_ne_zero.symm
  iframe

theorem hout2 (c : Dev nD) : (dat2 V c).Φ (Fin.last cfg2.N) ⊢ Pipeline.ΦA spec2 c := by
  rw [PhiA2_eq]; dsimp only [dat2, rows2]
  iintro ⟨%s, -, ⟨⟨H0, H1⟩, HR⟩, Hg⟩
  iframe HR Hg
  isplitl [H0] <;> iexists _ <;> iassumption

end Cert.Kernel.Hand

end
-- ==== Proof.Bits.Reg3.lean ====
import proofs.«406417_j47201690583086_1_alg».proof.Proof.Bits.Dats

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before3 (c : Dev nD) (t : Fin cfg3.N) : (∀ d, (dat3 V c).before 0 t d = (dat3 V c).after 0 t)
    ∧ (∀ d, (dat3 V c).before 1 t d = (dat3 V c).after 1 t)
    ∧ (∀ d, (dat3 V c).before 2 t d = (dat3 V c).after 2 t)
    ∧ (∀ d, (dat3 V c).before 3 t d = (dat3 V c).after 3 t)
    ∧ (∀ d, (dat3 V c).before 4 t d = (dat3 V c).after 4 t)
    ∧ ∀ d, (dat3 V c).before 5 t d = (dat3 V c).after 5 t := by
  refine ⟨?_, ?_, ?_, ?_, ?_, ?_⟩ <;>
    exact fun d => ((dat3 V c).before_in_eq_fetched _ rfl (fun _ => rfl) (fun _ _ _ => rfl) (fun _ => rfl) t d).trans rfl

set_option maxHeartbeats 1000000 in
theorem sound_kernel3 (c : Dev nD) (E : Set ℕ) (i : grid3.Coords) (arg0 : Memref sig .tc .vmem S5000x64 .f32) (harg0 : arg0.IsWhole) (arg1 : Memref sig .tc .vmem S64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S64 .f32) (harg4 : arg4.IsWhole) (arg5 : Memref sig .tc .vmem S64 .f32) (harg5 : arg5.IsWhole) (arg6 : Memref sig .tc .vmem S5000x64 .f32) (harg6 : arg6.IsWhole)
    (x0 : Vec F S5000x64 .f32) (x1 : Vec F S64 .f32) (x2 x3 : Vec F S1x64 .f32) (x4 x5 : Vec F S64 .f32) (K : PUnit → sProp 𝕄) :
    iprop(owns c arg0 fullShare x0 ∗ owns c arg1 fullShare x1 ∗ owns c arg2 fullShare x2 ∗ owns c arg3 fullShare x3 ∗ owns c arg4 fullShare x4 ∗ owns c arg5 fullShare x5 ∗ (∃ d, owns c arg6 fullShare d)
        ∗ (iprop(owns c arg0 fullShare x0 ∗ owns c arg1 fullShare x1 ∗ owns c arg2 fullShare x2 ∗ owns c arg3 fullShare x3 ∗ owns c arg4 fullShare x4 ∗ owns c arg5 fullShare x5 ∗ owns c arg6 fullShare (k3_pay1 x0 x1 x2 x3 x4 x5)) -∗ K ⟨⟩))
      ⊢ wp frame (wpE (defs₀ (F := F)) Variants.none c none) E (cc3__norm_kernel i arg0 harg0 arg1 harg1 arg2 harg2 arg3 harg3 arg4 harg4 arg5 harg5 arg6 harg6) K := by
  simp only [cc3__norm_kernel_eq_skeleton, owns_eq_rep]; unfold cc3__norm_kernel_skel
  iintro ⟨H0, H1, H2, H3, H4, H5, ⟨%d0, H6⟩, Hk⟩
  sl_exec
  sl_step
  iapply Hk
  iframe H0 H1 H2 H3 H4 H5
  simp only [load_whole_rep (S := S5000x64) _ zeros_r2, load_whole_rep (S := S64) _ zeros_r1, load_whole_rep (S := S1x64) _ zeros_r2]
  iapply (store_whole_rep (S := S5000x64) _ _ _ zeros_r2); iexact H6

theorem body_obligation3 (c : Dev nD) : BodyObligation (dat3 (F := F) V c) (defs₀ (F := F)) Variants.none () Set.univ := fun t => by
  rw [bigSep_W3, bigSep_W3]
  obtain ⟨b0, b1, b2, b3, b4, b5⟩ := before3 V c t
  simp only [b0, b1, b2, b3, b4, b5]
  rw [show (dat3 V c).Φ t.succ = (dat3 V c).Φ t.castSucc from rfl,
    show (dat3 V c).owesAt () t.succ = (dat3 V c).owesAt () t.castSucc from rfl,
    show (dat3 V c).after 6 t = k3_pay1 ((dat3 V c).after 0 t) ((dat3 V c).after 1 t) ((dat3 V c).after 2 t) ((dat3 V c).after 3 t) ((dat3 V c).after 4 t) ((dat3 V c).after 5 t) from rfl]
  show _ ⊢ wp _ _ _ (bodyAt3 t) _
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ _ _ _ _ _ _ _ _ _ _ _ _ _ _ _ ((dat3 V c).after 0 t) ((dat3 V c).after 1 t) ((dat3 V c).after 2 t) ((dat3 V c).after 3 t) ((dat3 V c).after 4 t) ((dat3 V c).after 5 t))
  iframe H0 H1 H2 H3 H4 H5
  isplitl [H6]; · iexists _; iexact H6
  iintro ⟨H0, H1, H2, H3, H4, H5, H6⟩
  iframe

end Cert.Kernel.Hand

end
-- ==== Proof.Bits.Run.lean ====
import proofs.«406417_j47201690583086_1_alg».proof.Proof.Bits.Fold
import proofs.«406417_j47201690583086_1_alg».proof.Proof.Bits.Reg0
import proofs.«406417_j47201690583086_1_alg».proof.Proof.Bits.Reg1
import proofs.«406417_j47201690583086_1_alg».proof.Proof.Bits.Reg2
import proofs.«406417_j47201690583086_1_alg».proof.Proof.Bits.Reg2IO
import proofs.«406417_j47201690583086_1_alg».proof.Proof.Bits.Reg3

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Rounds
open Idealize.ShloMosaic.Pipeline (Dat BodyObligation)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

abbrev adm : (p : Fin 4) → (pcfgs (F := F) p).Adm := fun p => (cfgs p).toPCfg_adm
def pdats : (p : Fin 4) → (c : Dev nD) → Dat τ (Elt F) Unit ℕ (UR sig nD τ) ℕ (Pipeline.pin (pcfgs (F := F)) adm p) c
  | ⟨0, _⟩ => dat0 (Y1 m)
  | ⟨1, _⟩ => dat1 (Y5 m)
  | ⟨2, _⟩ => dat2 (Y7 m)
  | ⟨3, _⟩ => dat3 (Y9 m)
theorem pdats_std : ∀ p c, (∀ w, (pdats m p c).q w = fullShare) ∧ (∀ t, (pdats m p c).owed t = 0) ∧ ∀ t, (pdats m p c).recorded t = Set.univ
  | ⟨0, _⟩, _ | ⟨1, _⟩, _ | ⟨2, _⟩, _ | ⟨3, _⟩, _ => ⟨fun _ => rfl, fun _ => rfl, fun _ => rfl⟩
abbrev 𝒱₀ : Variants := Variants.none
abbrev L : GSem nD τ sig → Finset Unit := fun _ => ∅
abbrev lv : GSem nD τ sig → Unit → ℕ := fun _ _ => 0
/-- The part of the thread state no item changes. -/
abbrev R (c : Dev nD) : sProp 𝕄 := iprop((∃ r, prngReg c r) ∗ ∃ W, owes (c : Thread nD τ) (0 : CellTallies nD τ sig Unit) W)
/-- The thread state between two items: every unscoped buffer at `V`. -/
abbrev T (V : Valuation τ sig (Elt F)) (c : Dev nD) : sProp 𝕄 := iprop(StableHlo.held (c : Thread nD τ) (Pipeline.ucRefs τ sig) V ∗ R c)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- A region as a segment from `V` to `exitV`: its arrays leave the held buffers at entry and rejoin them at exit. -/
def reg {p : Fin 4} (lf : Pipeline.LaunchFacts (nD := nD) (τ := τ) cfgs p) (V : Dev nD → Valuation τ sig (Elt F))
    (hb : ∀ c, BodyObligation (pdats m p c) (defs₀ (F := F)) Variants.none () Set.univ)
    (hA : ∀ c w, (pdats m p c).A w = V c (Proc.devRef .tc (Pipeline.arrRef (cfgs p).spec w)))
    (hi : ∀ c, (Pipeline.ΦA (cfgs p).spec c : sProp 𝕄) ⊢ (pdats m p c).Φ 0)
    (ht : ∀ c, (pdats m p c).Φ (Fin.last _) ⊢ (Pipeline.ΦA (cfgs p).spec c : sProp 𝕄)) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p fun c => (pdats_std m p c).2.1
  pre c := T (V c) c
  post c := T (exitV (pdats m p c) (V c)) c
  X c := iprop(∃ r, prngReg c r)
  Y c := iprop(∃ r, prngReg c r)
  Z c := Pipeline.unscopedRest (cfgs p).spec c (atRefs V c)
  hentry c := by
    obtain ⟨hq, ho, hr⟩ := pdats_std m p c
    have hsplit := Pipeline.arrays_of_unscopedBufs (pcfgs (F := F)) adm (pdats m) lf.win lf.arr_whole c
      ((pdats m p c).share_full hq) (atRefs V c) (hA c)
    rw [Pipeline.unscopedBufs_held] at hsplit
    rw [Pipeline.ownSems0_none]; unfold Pipeline.Dat.owesAt Pipeline.owesWithin Pipeline.Dat.bound; rw [ho, hr]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · icases HO with ⟨%W, HO⟩; iexists W; isplitr; · ipureintro; exact fun _ _ => Or.inl trivial
      iexact HO
    isplitl [Hp]; · iexact Hp
    iexact Hrest
  hin c := by
    refine .trans ?_ (hi c)
    unfold Pipeline.ΦA
    iintro ⟨Hp, -, Hr⟩
    isplitl [Hr]; · iexact Hr
    iexact Hp
  hout c := by
    refine (ht c).trans ?_
    rw [Pipeline.ownSems0_none]; unfold Pipeline.ΦA
    iintro ⟨Hr, Hp⟩
    isplitl [Hp]; · iexact Hp
    isplitr; · iempintro
    iexact Hr
  hexit c := by
    obtain ⟨hq, ho, -⟩ := pdats_std m p c
    have hjoin := Pipeline.unscopedBufs_of_arrays (pcfgs (F := F)) adm lf.win lf.arr_whole c (pdats m) ((pdats m p c).share_full hq)
      (atRefs V c) (atRefs (fun c => exitV (pdats m p c) (V c)) c) ((pdats m p c).arrAt · (cfgs p).N)
      (fun w => (exitV_arr _ _ lf.win w).symm)
      fun b hb => Pipeline.withArrays_of_ne _ c _ _ b fun w e => hb (Finset.mem_image.mpr ⟨w, Finset.mem_univ _, e⟩)
    rw [Pipeline.unscopedBufs_held] at hjoin
    unfold Pipeline.Dat.owesAt Pipeline.owesWithin; rw [ho]
    iintro ⟨Ha, HO, HY, Hrest⟩
    imodintro
    isplitl [Ha Hrest]
    · iapply hjoin; isplitl [Ha] <;> iassumption
    isplitl [HY]; · iexact HY
    icases HO with ⟨%W, -, HO⟩; iexists W; iexact HO

abbrev segs : List (Pipeline.Seg (pcfgs (F := F)) adm (pdats m) () defs₀ 𝒱₀ L lv) :=
  [ .host (hseg hostOps0 hostOps0_sub hostOps0_fresh (X0 m)),
    .region (reg m launch0 (X1 m) (body_obligation0 _) (fun _ _ => rfl) (fun _ => .rfl) fun _ => .rfl),
    .host (hseg hostOps1 hostOps1_sub hostOps1_fresh (X2 m)),
    .host (hseg hostOps1_1 hostOps1_1_sub hostOps1_1_fresh (X3 m)),
    .host (hseg hostOps1_2 hostOps1_2_sub hostOps1_2_fresh (X4 m)),
    .region (reg m launch1 (X5 m) (body_obligation1 _) (fun _ _ => rfl) (fun _ => .rfl) fun _ => .rfl),
    .host (hseg hostOps2 hostOps2_sub hostOps2_fresh (X6 m)),
    .region (reg m launch2 (X7 m) (body_obligation2 _) (fun _ _ => rfl) (hin2 _) (hout2 _)),
    .host (hseg hostOps3 hostOps3_sub hostOps3_fresh (X8 m)),
    .region (reg m launch3 (X9 m) (body_obligation3 _) (fun _ _ => rfl) (fun _ => .rfl) fun _ => .rfl) ]
theorem main_run (c : Dev nD) : main (F := F) c = Pipeline.Seg.run (segs m) := (main_chain c).trans (by chain_rfl)

set_option backward.isDefEq.respectTransparency.types false in
/-- Every fair run of @main from `m` ends with each unscoped buffer at `X10`. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = X10 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => T (X0 m c) c)
    (Tₙ := fun c => iprop(StableHlo.held (c : Thread nD τ) (Pipeline.ucRefs τ sig) (X10 m c) ∗ ∃ r, prngReg c r))
    (hch := ⟨fun _ => .rfl, fun _ => .rfl, fun _ => .rfl, fun _ => .rfl, fun _ => .rfl, fun _ => .rfl, fun _ => .rfl, fun _ => .rfl,
      fun _ => .rfl, fun _ => .rfl, fun _ => sep_assoc'⟩)
    (hinit := by
      refine Pipeline.initEach L lv fun c => ?_
      rw [show unscopedBufs c (fun b => m ((c : Thread nD τ).loc b)) = StableHlo.held (c : Thread nD τ) (Pipeline.ucRefs τ sig) (X0 m c)
        from Pipeline.unscopedBufs_held c (X0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = X10 m c b)
    (hfin := fun c s' => by
      iintro ⟨⟨Hh, -⟩, HSI⟩
      unfold StableHlo.held
      imodintro
      iapply (pointsTo_read_all (Pipeline.ucRefs τ sig) (fun b => (((c : Thread nD τ)).1, b)) (X10 m c) s')
      isplitl [Hh] <;> iassumption)
    (hQ := fun s h c => h c)

end Cert.Kernel.Hand

end
-- ==== Proof.Bits.Frame.lean ====
import proofs.«406417_j47201690583086_1_alg».proof.Proof.Bits.Run

noncomputable section

namespace Cert.Kernel.Hand

open Idealize.ShloMosaic Idealize.ShloMosaic.TcCoe
open Idealize.SL.Sem
open Cert.Kernel Cert.Kernel.Gen

variable {F : FTy → Type} [FloatOps F]

variable (m : (ℓ : Loc nD τ sig) → Buf (Elt F) ℓ)

/-- Memory `s` holds every argument array of core `c` as launched. -/
abbrev ArgsKept (s : MemSt nD τ sig (Elt F)) (c : Dev nD) : Prop :=
  s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)
  ∧ s.mem ((c.tc : Thread nD τ).loc main_arg4) = m ((c.tc : Thread nD τ).loc main_arg4)
  ∧ s.mem ((c.tc : Thread nD τ).loc main_arg5) = m ((c.tc : Thread nD τ).loc main_arg5)
  ∧ s.mem ((c.tc : Thread nD τ).loc main_arg6) = m ((c.tc : Thread nD τ).loc main_arg6)
  ∧ s.mem ((c.tc : Thread nD τ).loc main_arg7) = m ((c.tc : Thread nD τ).loc main_arg7)
  ∧ s.mem ((c.tc : Thread nD τ).loc main_arg8) = m ((c.tc : Thread nD τ).loc main_arg8)
  ∧ s.mem ((c.tc : Thread nD τ).loc main_arg9) = m ((c.tc : Thread nD τ).loc main_arg9)
  ∧ s.mem ((c.tc : Thread nD τ).loc main_arg10) = m ((c.tc : Thread nD τ).loc main_arg10)

/-- Every fair run of @main ends with the result array at `X10` and every argument array as launched. -/
theorem run_value (ρ : Dev nD → PrngReg) : θ_run defs (onTc (τ := τ) (main (F := F))) ⟨m, fun _ => 0, ρ⟩ (fun r => ∀ c : Dev nD,
      r.2.mem ((c.tc : Thread nD τ).loc main_v22) = X10 m c (Proc.devRef .tc main_v22) ∧ ArgsKept m r.2 c) :=
  (θ_run defs _ _).mono (fun r h c =>
    have a (b : Ref sig .tc) (hu : ¬ (Proc.devRef .tc b : DevRef τ sig).isScoped) (hb : Unwritten b) :
        r.2.mem ((c.tc : Thread nD τ).loc b) = m ((c.tc : Thread nD τ).loc b) := (h c _ (mem_uc b hu)).trans (X10_arg m c b hb)
    ⟨h c _ (mem_uc main_v22 (by decide)), a main_arg0 (by decide) (by decide),
      a main_arg1 (by decide) (by decide),
      a main_arg2 (by decide) (by decide),
      a main_arg3 (by decide) (by decide),
      a main_arg4 (by decide) (by decide),
      a main_arg5 (by decide) (by decide),
      a main_arg6 (by decide) (by decide),
      a main_arg7 (by decide) (by decide),
      a main_arg8 (by decide) (by decide),
      a main_arg9 (by decide) (by decide),
      a main_arg10 (by decide) (by decide)⟩)
    (run_all m ρ)

theorem frame_args (ρ : Dev nD → PrngReg) : θ_run defs (onTc (τ := τ) (main (F := F))) ⟨m, fun _ => 0, ρ⟩ (fun r => ∀ c : Dev nD,
      ArgsKept m r.2 c) :=
  (θ_run defs _ _).mono (fun r h c => (h c).2) (run_value m ρ)

end Cert.Kernel.Hand

end
-- ==== Proof.RefRun.lean ====
import proofs.«406417_j47201690583086_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

-- The first sixty operations: the projections, the wrapped index rows, the gathers, the gate, the scatter-add, the bias.
abbrev ops0 : List (HloOp τ sig (Elt F)) :=
  [ binary main_arg0 main_arg2 main_v0 (Host.dotGeneral dot_S50000x64_S64x64_S50000x64_1_0_0_1_n_n none),
    unary main_arg3 main_v1 (broadcastInDim S1x64 ![1] bcast_S64_S1x64_1),
    unary main_v1 main_v2 (broadcastInDim S50000x64 ![0, 1] bcast_S1x64_S50000x64_0_1),
    binary main_v0 main_v2 main_v3 addf,
    binary main_arg0 main_arg4 main_v4 (Host.dotGeneral dot_S50000x64_S64x64_S50000x64_1_0_0_1_n_n none),
    unary main_arg5 main_v5 (broadcastInDim S1x64 ![1] bcast_S64_S1x64_1),
    unary main_v5 main_v6 (broadcastInDim S50000x64 ![0, 1] bcast_S1x64_S50000x64_0_1),
    binary main_v4 main_v6 main_v7 addf,
    binary main_arg0 main_arg6 main_v8 (Host.dotGeneral dot_S50000x64_S64x64_S50000x64_1_0_0_1_n_n none),
    unary main_arg7 main_v9 (broadcastInDim S1x64 ![1] bcast_S64_S1x64_1),
    unary main_v9 main_v10 (broadcastInDim S50000x64 ![0, 1] bcast_S1x64_S50000x64_0_1),
    binary main_v8 main_v10 main_v11 addf,
    unary main_arg1 main_v12 (extractStridedSlice S1x800000 ![0, 0] · slices_S2x800000_S1x800000_0_0),
    reshape main_v12 main_v13 rfl shapeCasts_S1x800000_S800000,
    unary main_arg1 main_v14 (extractStridedSlice S1x800000 ![1, 0] · slices_S2x800000_S1x800000_1_0),
    reshape main_v14 main_v15 rfl shapeCasts_S1x800000_S800000,
    nullary main_c (constantI S_ 32 0#32),
    unary main_c main_v16 (broadcastInDim S800000 ![] bcast_S_S800000),
    binary main_v15 main_v16 main_v17 (cmpi .slt),
    nullary main_c_0 (constantI S_ 32 50000#32),
    unary main_c_0 main_v18 (broadcastInDim S800000 ![] bcast_S_S800000),
    binary main_v15 main_v18 main_v19 addi,
    ternary main_v17 main_v19 main_v15 main_v20 select,
    unary main_v20 main_v21 (broadcastInDim S800000x1 ![0] bcast_S800000_S800000x1_0),
    binary main_v3 main_v21 main_v22 (Host.gather gather_S50000x64_S800000x1_S800000x64_1_0_n_n_0_1_164),
    nullary main_c_1 (constantI S_ 32 0#32),
    unary main_c_1 main_v23 (broadcastInDim S800000 ![] bcast_S_S800000),
    binary main_v13 main_v23 main_v24 (cmpi .slt),
    nullary main_c_2 (constantI S_ 32 50000#32),
    unary main_c_2 main_v25 (broadcastInDim S800000 ![] bcast_S_S800000),
    binary main_v13 main_v25 main_v26 addi,
    ternary main_v24 main_v26 main_v13 main_v27 select,
    unary main_v27 main_v28 (broadcastInDim S800000x1 ![0] bcast_S800000_S800000x1_0),
    binary main_v7 main_v28 main_v29 (Host.gather gather_S50000x64_S800000x1_S800000x64_1_0_n_n_0_1_164),
    binary main_v22 main_v29 main_v30 addf,
    unary main_v30 main_v31 Host.negf,
    unary main_v31 main_v32 Host.exp,
    nullary main_cst (constant S_ .f32 0x3F800000#32),
    unary main_cst main_v33 (broadcastInDim S800000x64 ![] bcast_S_S800000x64),
    binary main_v33 main_v32 main_v34 addf,
    nullary main_cst_3 (constant S_ .f32 0x3F800000#32),
    unary main_cst_3 main_v35 (broadcastInDim S800000x64 ![] bcast_S_S800000x64),
    binary main_v35 main_v34 main_v36 Host.divf,
    nullary main_c_4 (constantI S_ 32 0#32),
    unary main_c_4 main_v37 (broadcastInDim S800000 ![] bcast_S_S800000),
    binary main_v13 main_v37 main_v38 (cmpi .slt),
    nullary main_c_5 (constantI S_ 32 50000#32),
    unary main_c_5 main_v39 (broadcastInDim S800000 ![] bcast_S_S800000),
    binary main_v13 main_v39 main_v40 addi,
    ternary main_v38 main_v40 main_v13 main_v41 select,
    unary main_v41 main_v42 (broadcastInDim S800000x1 ![0] bcast_S800000_S800000x1_0),
    binary main_v11 main_v42 main_v43 (Host.gather gather_S50000x64_S800000x1_S800000x64_1_0_n_n_0_1_164),
    binary main_v36 main_v43 main_v44 mulf,
    nullary main_cst_6 (constant S_ .f32 0x00000000#32),
    unary main_cst_6 main_v45 (broadcastInDim S50000x64 ![] bcast_S_S50000x64),
    unary main_v15 main_v46 (broadcastInDim S800000x1 ![0] bcast_S800000_S800000x1_0),
    ternary main_v45 main_v46 main_v44 main_v47 (Host.scatterAdd scatter_S50000x64_S800000x1_S800000x64_1_0_0_1),
    unary main_arg8 main_v48 (broadcastInDim S1x64 ![1] bcast_S64_S1x64_1),
    unary main_v48 main_v49 (broadcastInDim S50000x64 ![0, 1] bcast_S1x64_S50000x64_0_1),
    binary main_v47 main_v49 main_v50 addf ]

-- The last forty-seven, the three calls opened where they stand: the mean, the variance, the normalisation, the rectifier.
abbrev ops1 : List (HloOp τ sig (Elt F)) :=
  [ nullary main_cst_7 (constant S_ .f32 0x00000000#32),
    binary main_v50 main_cst_7 main_v51 (Host.reduceAdd · · reducesTo_S50000x64_S64_d0 h_S_),
    nullary main_cst_8 (constant S_ .f32 0x47435000#32),
    unary main_cst_8 main_v52 (broadcastInDim S64 ![] bcast_S_S64),
    binary main_v51 main_v52 main_v53 Host.divf,
    nullary main_c_9 (constantI S_ 32 0#32),
    TRef.nullary main_call0.cst (constant S_ .f32 0x00000000#32),
    TRef.binary (.of main_v50 : TRef sig ⟨S50000x64, .f32⟩) main_call0.cst main_call0.v0 (Host.reduceAdd · · reducesTo_S50000x64_S64_d0 h_S_),
    TRef.unary main_call0.v0 main_call0.v1 (broadcastInDim S1x64 ![1] bcast_S64_S1x64_1),
    TRef.nullary main_call0.cst_0 (constant S_ .f32 0x47435000#32),
    TRef.unary main_call0.cst_0 main_call0.v2 (broadcastInDim S1x64 ![] bcast_S_S1x64),
    TRef.binary main_call0.v1 main_call0.v2 main_call0.v3 Host.divf,
    TRef.unary main_call0.v3 main_call0.v4 (broadcastInDim S50000x64 ![0, 1] bcast_S1x64_S50000x64_0_1),
    TRef.binary (.of main_v50 : TRef sig ⟨S50000x64, .f32⟩) main_call0.v4 main_call0.v5 subf,
    TRef.binary main_call0.v5 main_call0.v5 main_call0.v6 mulf,
    TRef.unary (.of main_c_9 : TRef sig ⟨S_, .i32⟩) main_call0.v7 (sitofp .f32),
    TRef.nullary main_call0.cst_1 (constant S_ .f32 0x47435000#32),
    TRef.binary main_call0.cst_1 main_call0.v7 main_call0.v8 subf,
    TRef.nullary main_call0.cst_2 (constant S_ .f32 0x00000000#32),
    TRef.binary main_call0.v6 main_call0.cst_2 main_call0.v9 (Host.reduceAdd · · reducesTo_S50000x64_S64_d0 h_S_),
    TRef.unary main_call0.v8 main_call0.v10 (broadcastInDim S64 ![] bcast_S_S64),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S64 ![] bcast_S_S64),
    TRef.ternary main_call0.v12 main_call0.v11 main_call0.call0.v1 main_call0.call0.v2 (fun p a b => select (broadcastInDim S64 ![] bcast_S_S64 p) a b),
    unary main_v53 main_v55 (broadcastInDim S1x64 ![1] bcast_S64_S1x64_1),
    unary main_v55 main_v56 (broadcastInDim S50000x64 ![0, 1] bcast_S1x64_S50000x64_0_1),
    binary main_v50 main_v56 main_v57 subf,
    nullary main_cst_10 (constant S_ .f32 0x3727C5AC#32),
    unary main_cst_10 main_v58 (broadcastInDim S64 ![] bcast_S_S64),
    binary main_v54 main_v58 main_v59 addf,
    unary main_v59 main_v60 Host.rsqrt,
    unary main_v60 main_v61 (broadcastInDim S1x64 ![1] bcast_S64_S1x64_1),
    unary main_v61 main_v62 (broadcastInDim S50000x64 ![0, 1] bcast_S1x64_S50000x64_0_1),
    binary main_v57 main_v62 main_v63 mulf,
    unary main_arg9 main_v64 (broadcastInDim S1x64 ![1] bcast_S64_S1x64_1),
    unary main_v64 main_v65 (broadcastInDim S50000x64 ![0, 1] bcast_S1x64_S50000x64_0_1),
    binary main_v63 main_v65 main_v66 mulf,
    unary main_arg10 main_v67 (broadcastInDim S1x64 ![1] bcast_S64_S1x64_1),
    unary main_v67 main_v68 (broadcastInDim S50000x64 ![0, 1] bcast_S1x64_S50000x64_0_1),
    binary main_v66 main_v68 main_v69 addf,
    TRef.nullary main_call1.cst (constant S_ .f32 0x00000000#32),
    TRef.unary main_call1.cst main_call1.v0 (broadcastInDim S50000x64 ![] bcast_S_S50000x64),
    TRef.binary (.of main_v69 : TRef sig ⟨S50000x64, .f32⟩) main_call1.v0 main_call1.v1 maximumf ]

abbrev ops : List (HloOp τ sig (Elt F)) := ops0 ++ ops1

-- Every reference but the eleven arguments: each operation writes one of these.
abbrev opsW : List (Ref sig .tc) := (List.finRange 107).map fun k => ⟨.hbm, k.addNat 11, rfl⟩

set_option maxHeartbeats 1000000 in
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  simp only [List.forall_append, List.Forall, nullary_bufs_sub, unary_bufs_sub, binary_bufs_sub, ternary_bufs_sub, reshape_bufs_sub, and_self]

theorem ops_writes : (ops : List (HloOp τ sig (Elt F))).Forall fun op =>
    op.writes ⊆ (opsW.map (Proc.devRef (τ := τ) .tc)).toFinset := by
  simp only [List.forall_append, List.Forall]
  repeat' apply And.intro
  all_goals (simp only [nullary_writes, unary_writes, binary_writes, ternary_writes, reshape_writes, Finset.singleton_subset_iff, List.mem_toFinset]; exact List.mem_map_of_mem (by decide))

-- An argument is written by no operation, so either stretch, or both, leave it as launched.
theorem keep0 (V : Valuation τ sig (Elt F)) (r : Ref sig .tc) (h : r ∉ opsW := by decide) :
    after ops0 V (Proc.devRef .tc r) = V (Proc.devRef .tc r) :=
  after_of_writes_sub ops0 V (List.forall_append.1 ops_writes).1 h
theorem keep (V : Valuation τ sig (Elt F)) (r : Ref sig .tc) (h : r ∉ opsW := by decide) :
    after ops V (Proc.devRef .tc r) = V (Proc.devRef .tc r) :=
  after_of_writes_sub ops V ops_writes h

def refOut (m : (ℓ : Loc nD τ sig) → Buf (Elt F) ℓ) (c : Dev nD) : Buf (Elt F) ((c.tc : Thread nD τ).loc main_v70) :=
  after ops (launchContents m c) (Proc.devRef .tc main_v70)

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v70) = refOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨h c main_v70, (h c _).trans (keep _ main_arg0), (h c _).trans (keep _ main_arg1),
      (h c _).trans (keep _ main_arg2), (h c _).trans (keep _ main_arg3), (h c _).trans (keep _ main_arg4),
      (h c _).trans (keep _ main_arg5), (h c _).trans (keep _ main_arg6), (h c _).trans (keep _ main_arg7),
      (h c _).trans (keep _ main_arg8), (h c _).trans (keep _ main_arg9), (h c _).trans (keep _ main_arg10)⟩)
    (run_seq scopedRefs_eq scopedSems_eq defs main (fun _ => ops) main_eq (fun _ => ops_sub) m ρ)

end Cert.ReferenceIdeal.Hand

end
-- ==== Proof.Spec.lean ====
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

abbrev Mat (a b : ℕ) := Fin a → Fin b → EReal
abbrev Row (b : ℕ) := Fin b → EReal

def proj (x : Mat 50000 64) (W : Mat 64 64) (b : Row 64) : Mat 50000 64 :=
  fun i j => (∑ k : Fin 64, x i k * W k j) + b j

def gate (kd qs vs : Mat 800000 64) : Mat 800000 64 :=
  fun e j => Ideal.logistic (kd e j + qs e j) * vs e j

def hb (agg : Mat 50000 64) (bias : Row 64) : Mat 50000 64 := fun i j => agg i j + bias j

def s1 (h : Mat 50000 64) : Row 64 := fun j => ∑ i : Fin 50000, h i j
def s2 (h : Mat 50000 64) : Row 64 := fun j => ∑ i : Fin 50000, h i j * h i j

def mean (nn : EReal) (h : Mat 50000 64) : Row 64 := fun j => Ideal.div (s1 h j) nn

def varK (nn : EReal) (h : Mat 50000 64) : Row 64 := fun j => Ideal.div (s2 h j) nn - mean nn h j * mean nn h j

def varR (nn : EReal) (h : Mat 50000 64) : Row 64 :=
  fun j => Ideal.div (∑ i : Fin 50000, (h i j - mean nn h j) * (h i j - mean nn h j)) nn

def norm (h : Mat 50000 64) (mu inv gamma beta : Row 64) : Mat 50000 64 :=
  fun i j => max (((h i j - mu j) * inv j) * gamma j + beta j) 0

def invstd (var : Row 64) (eps : EReal) : Row 64 := fun j => Ideal.rsqrt (var j + eps)

def out (var : Row 64) (nn eps : EReal) (h : Mat 50000 64) (gamma beta : Row 64) : Mat 50000 64 :=
  norm h (mean nn h) (invstd var eps) gamma beta

def mat {a b : ℕ} (v : (⟨2, ![a, b]⟩ : Shape).Idx → EReal) : Mat a b := fun i j => v (ix2 i j)
def unmat {a b : ℕ} (M : Mat a b) : (⟨2, ![a, b]⟩ : Shape).Idx → EReal := fun i => M (i 0) (i 1)
def row {b : ℕ} (v : (⟨1, ![b]⟩ : Shape).Idx → EReal) : Row b := fun j => v (ix1 j)
def row2 {b : ℕ} (v : (⟨2, ![1, b]⟩ : Shape).Idx → EReal) : Row b := fun j => v (ix2 0 j)
def unrow2 {b : ℕ} (r : Row b) : (⟨2, ![1, b]⟩ : Shape).Idx → EReal := fun i => r (i 1)

-- A real number among the extended reals: neither infinity.
def IsReal (x : EReal) : Prop := ∃ r : ℝ, x = r

end Cert.Spec

end
-- ==== Proof.KVal0.lean ====
import proofs.«406417_j47201690583086_1_alg».proof.Proof.Dats
import proofs.«406417_j47201690583086_1_alg».proof.Proof.Spec
import Idealize.ShloMosaic.Lib.Pipeline.Value
import Idealize.ShloMosaic.Lib.ValueLayout

noncomputable section

namespace Cert.KernelIdeal.Val

open Idealize.ShloMosaic Idealize.ShloMosaic.TcCoe Idealize.ShloMosaic.ValueIdx
open Idealize.ShloMosaic.Pipeline (Dat Window)
open Cert.KernelIdeal Cert.KernelIdeal.Gen Cert.KernelIdeal.Hand Cert.Spec

-- For every row-blocked output: dividing a coordinate by the block's size names the block that holds it.
theorem mem_rect_of_div {G : Pipeline.Grid} (w : Window sig G) (t : Fin G.N) (i : w.shape.Idx)
    (h : ∀ a, w.index t a = (i a).val / w.size a) (hp : ∀ a, 0 < w.size a) (hx : ∀ a, w.xsize (G.coords t) a = w.size a) :
    i ∈ (w.rect t).set :=
  Rect.mem_set_unit.mpr fun a => by
    show w.index t a * w.size a ≤ (i a).val ∧ (i a).val < w.index t a * w.size a + w.xsize (G.coords t) a
    rw [h a, hx a]
    exact ⟨Nat.div_mul_le_self _ _, Nat.lt_div_mul_add (hp a)⟩

variable (V : (c : Dev nD) → (b : Ref sig .tc) → Buf (Elt Ideal) ((c : Thread nD τ).loc b))

-- The contraction has one axis, so its sum re-indexes over the 64 columns.
theorem pay2_apply (x : Vec Ideal S5000x64 .f32) (W : Vec Ideal S64x64 .f32) (b : Vec Ideal S64 .f32) (p : Fin 5000) (q : Fin 64) :
    k0_pay2 x W b (ix2 p q) = (∑ k : Fin 64, x (ix2 p k) * W (ix2 k q)) + b (ix1 q) := by
  unfold k0_pay2 k0_pay1
  show FloatOps.matmul (F := Ideal) dot_S5000x64_S64x64_S5000x64_1_0_0_1_n_n none (truncf .bf16 x bitsLt_bf16_f32) (truncf .bf16 W bitsLt_bf16_f32) (constant (F := Ideal) S5000x64 .f32 0x00000000#32) (ix2 p q)
      + broadcastTo S5000x64 (shapeCast S1x64 b shapeCasts_S64_S1x64) broadcasts_S1x64_S5000x64 (ix2 p q) = _
  rw [Ideal.matmul_constant_zero_apply, broadcastTo_1b_ab_apply, shapeCast_a_1a_apply]
  congr 1
  rw [← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  show x _ * W _ = _
  congr 1
  · refine congrArg x (funext fun a => Fin.ext ?_)
    match a with
    | ⟨0, _⟩ => rfl
    | ⟨1, _⟩ => exact (DotDims.lhsIdx_val_of_single _ rfl _ _).trans hk
  · refine congrArg W (funext fun a => Fin.ext ?_)
    match a with
    | ⟨0, _⟩ => exact (DotDims.rhsIdx_val_of_single _ rfl _ _).trans hk
    | ⟨1, _⟩ => rfl

abbrev G (X : S50000x64.Idx → EReal) (Wa : S64x64.Idx → EReal) (ba : S64.Idx → EReal) : S50000x64.Idx → EReal :=
  unmat (proj (mat X) (mat Wa) (row ba))

theorem idx_facts : ∀ t : Fin cfg0.N, win0_0.index t (0 : Fin 2) = t.val ∧ win0_0.index t (1 : Fin 2) = 0
    ∧ (∀ a, win0_1.index t a = 0) ∧ (∀ a, win0_2.index t a = 0) :=
  (by decide +kernel : ∀ t : Fin grid0.N, _)

theorem row_emb (t : Fin cfg0.N) (y : S5000x64.Idx) :
    ((win0_0.rect t).emb y 0).val = t.val * 5000 + (y 0).val ∧ ((win0_0.rect t).emb y 1).val = (y 1).val := by
  obtain ⟨e0, e1, -⟩ := idx_facts t
  exact ⟨by show win0_0.index t (0 : Fin 2) * 5000 + 1 * (y 0).val = _; omega, by show win0_0.index t (1 : Fin 2) * 64 + 1 * (y 1).val = _; omega⟩

-- Shared by K, Q and V, which differ only in the weights and the bias they read.
theorem proj_block (X : S50000x64.Idx → EReal) (x : Vec Ideal S5000x64 .f32) (W : Vec Ideal S64x64 .f32) (b : Vec Ideal S64 .f32) (n : ℕ)
    (hx : ∀ (p : Fin 5000) (k : Fin 64) (r : Fin 50000), r.val = n * 5000 + p.val → x (ix2 p k) = X (ix2 r k))
    (e : S5000x64.Idx → S50000x64.Idx) (he : ∀ y, (e y 0).val = n * 5000 + (y 0).val ∧ (e y 1).val = (y 1).val) :
    k0_pay2 x W b = fun y => G X W b (e y) := by
  funext y
  obtain ⟨p, q, rfl⟩ : ∃ (p : Fin 5000) (q : Fin 64), y = ix2 p q := ⟨y 0, y 1, eq_ix2 y⟩
  rw [pay2_apply]
  show _ = (∑ k : Fin 64, X (ix2 (e (ix2 p q) 0) k) * W (ix2 k (e (ix2 p q) 1))) + b (ix1 (e (ix2 p q) 1))
  rw [show e (ix2 p q) 1 = q from Fin.ext (he _).2]
  exact congrArg (· + b (ix1 q)) (Finset.sum_congr rfl fun k _ => congrArg (· * W (ix2 k q)) (hx p k _ (he _).1))

theorem xblk_apply (c : Dev nD) (t : Fin cfg0.N) (p : Fin 5000) (k : Fin 64) (r : Fin 50000) (hr : r.val = t.val * 5000 + p.val) :
    (iblk0 V c 0 t : Vec Ideal S5000x64 .f32) (ix2 p k) = (V c main_arg0 : S50000x64.Idx → EReal) (ix2 r k) :=
  congrArg (V c main_arg0) (Shape.idx_ext₂ ((row_emb t (ix2 p k)).1.trans hr.symm) (row_emb t (ix2 p k)).2)

theorem wblk (c : Dev nD) (t : Fin cfg0.N) :
    (iblk0 V c 1 t = V c main_arg2 ∧ iblk0 V c 3 t = V c main_arg4 ∧ iblk0 V c 5 t = V c main_arg6)
    ∧ (iblk0 V c 2 t = V c main_arg3 ∧ iblk0 V c 4 t = V c main_arg5 ∧ iblk0 V c 6 t = V c main_arg7) := by
  obtain ⟨-, -, h1, h2⟩ := idx_facts t
  exact ⟨⟨funext fun y => congrArg (V c main_arg2) (funext fun a => Fin.ext (win0_1.rect_emb_val_of_index_zero t a (h1 a) y)),
      funext fun y => congrArg (V c main_arg4) (funext fun a => Fin.ext (win0_3.rect_emb_val_of_index_zero t a (h1 a) y)),
      funext fun y => congrArg (V c main_arg6) (funext fun a => Fin.ext (win0_5.rect_emb_val_of_index_zero t a (h1 a) y))⟩,
    funext fun y => congrArg (V c main_arg3) (funext fun a => Fin.ext (win0_2.rect_emb_val_of_index_zero t a (h2 a) y)),
      funext fun y => congrArg (V c main_arg5) (funext fun a => Fin.ext (win0_4.rect_emb_val_of_index_zero t a (h2 a) y)),
      funext fun y => congrArg (V c main_arg7) (funext fun a => Fin.ext (win0_6.rect_emb_val_of_index_zero t a (h2 a) y))⟩

-- One cover serves the three outputs: their blocks are placed as the feature blocks are.
theorem cover0 (i : S50000x64.Idx) : ∃ t : Fin cfg0.N, i ∈ (win0_0.rect t).set := by
  obtain ⟨t, ht⟩ : ∃ t : Fin cfg0.N, t.val = (i 0).val / 5000 :=
    ⟨⟨(i 0).val / 5000, by have := idx2_lt0 i; rw [show cfg0.N = 10 from N_0]; omega⟩, rfl⟩
  obtain ⟨e0, e1, -⟩ := idx_facts t
  exact ⟨t, mem_rect_of_div win0_0 t i
    (fun a => match a with | ⟨0, _⟩ => e0.trans ht | ⟨1, _⟩ => e1.trans (Nat.div_eq_of_lt (idx2_lt1 i)).symm) (by decide) fun _ => rfl⟩

theorem arr0_7 (c : Dev nD) : (dat0 (F := Ideal) V c).arrAt 7 cfg0.N
    = Cert.Spec.unmat (Cert.Spec.proj (Cert.Spec.mat (V c main_arg0)) (Cert.Spec.mat (V c main_arg2)) (Cert.Spec.row (V c main_arg3))) := by
  refine (dat0 (F := Ideal) V c).arrAt_eq_of_cover 7 (G (V c main_arg0) (V c main_arg2) (V c main_arg3)) (fun t _ => ?_) fun i =>
    (cover0 i).imp fun t h => ⟨flush0_7 t, ?_⟩
  · show k0_pay2 (iblk0 V c 0 t) (iblk0 V c 1 t) (iblk0 V c 2 t) = _
    rw [(wblk V c t).1.1, (wblk V c t).2.1]
    exact proj_block _ _ _ _ t.val (xblk_apply V c t) _ (row_emb t)
  · show i ∈ ((View.whole main_v4_0).slice (win0_0.rect t)).set
    rwa [View.set_slice_whole]

theorem arr0_8 (c : Dev nD) : (dat0 (F := Ideal) V c).arrAt 8 cfg0.N
    = Cert.Spec.unmat (Cert.Spec.proj (Cert.Spec.mat (V c main_arg0)) (Cert.Spec.mat (V c main_arg4)) (Cert.Spec.row (V c main_arg5))) := by
  refine (dat0 (F := Ideal) V c).arrAt_eq_of_cover 8 (G (V c main_arg0) (V c main_arg4) (V c main_arg5)) (fun t _ => ?_) fun i =>
    (cover0 i).imp fun t h => ⟨flush0_8 t, ?_⟩
  · show k0_pay2 (iblk0 V c 0 t) (iblk0 V c 3 t) (iblk0 V c 4 t) = _
    rw [(wblk V c t).1.2.1, (wblk V c t).2.2.1]
    exact proj_block _ _ _ _ t.val (xblk_apply V c t) _ (row_emb t)
  · show i ∈ ((View.whole main_v4_1).slice (win0_0.rect t)).set
    rwa [View.set_slice_whole]

theorem arr0_9 (c : Dev nD) : (dat0 (F := Ideal) V c).arrAt 9 cfg0.N
    = Cert.Spec.unmat (Cert.Spec.proj (Cert.Spec.mat (V c main_arg0)) (Cert.Spec.mat (V c main_arg6)) (Cert.Spec.row (V c main_arg7))) := by
  refine (dat0 (F := Ideal) V c).arrAt_eq_of_cover 9 (G (V c main_arg0) (V c main_arg6) (V c main_arg7)) (fun t _ => ?_) fun i =>
    (cover0 i).imp fun t h => ⟨flush0_9 t, ?_⟩
  · show k0_pay2 (iblk0 V c 0 t) (iblk0 V c 5 t) (iblk0 V c 6 t) = _
    rw [(wblk V c t).1.2.2, (wblk V c t).2.2.2]
    exact proj_block _ _ _ _ t.val (xblk_apply V c t) _ (row_emb t)
  · show i ∈ ((View.whole main_v4_2).slice (win0_0.rect t)).set
    rwa [View.set_slice_whole]

end Cert.KernelIdeal.Val

end
-- ==== Proof.KVal1.lean ====
import proofs.«406417_j47201690583086_1_alg».proof.Proof.KVal0

noncomputable section

namespace Cert.KernelIdeal.Val

open Idealize.ShloMosaic Idealize.ShloMosaic.TcCoe Idealize.ShloMosaic.ValueIdx
open Idealize.ShloMosaic.Pipeline (Dat Window)
open Cert.KernelIdeal Cert.KernelIdeal.Gen Cert.KernelIdeal.Hand Cert.Spec

variable (V : (c : Dev nD) → (b : Ref sig .tc) → Buf (Elt Ideal) ((c : Thread nD τ).loc b))

abbrev g1_gated (c : Dev nD) : S800000x64.Idx → EReal :=
  unmat (gate (mat (V c main_v5)) (mat (V c main_v6)) (mat (V c main_v7)))

theorem g1_gated_apply (A B C : S800000x64.Idx → EReal) (i : S800000x64.Idx) :
    unmat (gate (mat A) (mat B) (mat C)) i = Ideal.logistic (A i + B i) * C i :=
  congrArg (fun k => Ideal.logistic (A k + B k) * C k) (eq_ix2 i).symm

theorem g1_pay_apply (a b v : Vec Ideal S8000x64 .f32) (j : S8000x64.Idx) :
    k1_pay1 a b v j = Ideal.logistic (a j + b j) * v j := by
  unfold k1_pay1
  simp only [shapeCast_self]
  rfl

theorem g1_idx_facts : ∀ t : Fin cfg1.N, win1_3.index t (0 : Fin 2) = t.val ∧ win1_3.index t (1 : Fin 2) = 0 :=
  (by decide +kernel : ∀ t : Fin grid1.N, _)

-- Inputs and output are blocked alike, so the gate is taken entry by entry at one place.
theorem g1_flushed_eq (c : Dev nD) (t : Fin cfg1.N) :
    (dat1 (F := Ideal) V c).flushed 3 t = ((cfg1.win 3).blk t).view.read (Elt Ideal) (g1_gated V c) :=
  funext fun j => (g1_pay_apply _ _ _ j).trans (g1_gated_apply (V c main_v5) (V c main_v6) (V c main_v7) (((cfg1.win 3).blk t).view.emb j)).symm

theorem arr1_3 (c : Dev nD) : (dat1 (F := Ideal) V c).arrAt 3 cfg1.N
    = Cert.Spec.unmat (Cert.Spec.gate (Cert.Spec.mat (V c main_v5)) (Cert.Spec.mat (V c main_v6)) (Cert.Spec.mat (V c main_v7))) := by
  refine (dat1 (F := Ideal) V c).arrAt_eq_of_cover 3 (g1_gated V c) (fun t _ => g1_flushed_eq V c t) fun i => ?_
  obtain ⟨t, ht⟩ : ∃ t : Fin cfg1.N, t.val = (i 0).val / 8000 :=
    ⟨⟨(i 0).val / 8000, by have := idx2_lt0 i; rw [show cfg1.N = 100 from N_1]; omega⟩, rfl⟩
  obtain ⟨e0, e1⟩ := g1_idx_facts t
  refine ⟨t, flush1_3 t, ?_⟩
  show i ∈ ((View.whole main_v8).slice (win1_3.rect t)).set
  rw [View.set_slice_whole]
  exact mem_rect_of_div win1_3 t i
    (fun a => match a with | ⟨0, _⟩ => e0.trans ht | ⟨1, _⟩ => e1.trans (Nat.div_eq_of_lt (idx2_lt1 i)).symm) (by decide) fun _ => rfl

end Cert.KernelIdeal.Val

end
-- ==== Proof.KVal2.lean ====
import proofs.«406417_j47201690583086_1_alg».proof.Proof.Dats
import proofs.«406417_j47201690583086_1_alg».proof.Proof.Spec
import Idealize.ShloMosaic.Lib.Pipeline.Value
import Idealize.ShloMosaic.Lib.ValueLayout

noncomputable section

namespace Cert.KernelIdeal.Val

open Idealize.ShloMosaic Idealize.ShloMosaic.TcCoe Idealize.ShloMosaic.ValueIdx
open Idealize.ShloMosaic.Pipeline (Dat)
open Cert.KernelIdeal Cert.KernelIdeal.Gen Cert.KernelIdeal.Hand Cert.Spec

variable (V : (c : Dev nD) → (b : Ref sig .tc) → Buf (Elt Ideal) ((c : Thread nD τ).loc b))

abbrev s2_hmat (c : Dev nD) : Mat 50000 64 :=
  hb (mat (V c main_v11 : Vec Ideal S50000x64 .f32)) (row (V c main_arg8 : Vec Ideal S64 .f32))

-- Row i of h at column j, zero past the last row, so that a sum over a range of rows needs no bound.
def s2_hrow (c : Dev nD) (j : Fin 64) (i : ℕ) : EReal := if h : i < 50000 then s2_hmat V c ⟨i, h⟩ j else 0

theorem s2_pay3_apply (x : Vec Ideal S5000x64 .f32) (b : Vec Ideal S64 .f32) (p : Fin 5000) (q : Fin 64) :
    k2_pay3 (F := Ideal) x b (ix2 p q) = x (ix2 p q) + b (ix1 q) := by
  unfold k2_pay3
  refine (addf_apply _ _ (ix2 p q)).trans (congrArg₂ (· + ·) ?_ ?_)
  · exact congrFun (shapeCast_self x shapeCasts_S5000x64_S5000x64) (ix2 p q)
  · exact (broadcastTo_1b_ab_apply _ broadcasts_S1x64_S5000x64 p q).trans (shapeCast_a_1a_apply b shapeCasts_S64_S1x64 (0 : Fin 1) q)

theorem s2_zero_apply (q : Fin 64) : k2_pay1 (F := Ideal) (ix2 (0 : Fin 1) q) = 0 := by
  unfold k2_pay1
  exact (congrFun (shapeCast_self _ shapeCasts_S1x64_S1x64) (ix2 (0 : Fin 1) q)).trans Ideal.ofBits_zero_f32

-- Both carried rows are updated alike: the old row plus the column sums of a 5000×64 array.
theorem s2_rowsum_apply (y : FVec Ideal S5000x64 .f32) (s : Vec Ideal S1x64 .f32) (q : Fin 64) :
    shapeCast S1x64 (addf s (shapeCast S1x64 (multiReduction (F := Ideal) .add [0] S64 y 0x00000000#32 reduces_S5000x64_S64 (.inl rfl) rfl)
      shapeCasts_S64_S1x64)) shapeCasts_S1x64_S1x64 (ix2 (0 : Fin 1) q) = s (ix2 (0 : Fin 1) q) + ∑ p : Fin 5000, y (ix2 p q) := by
  refine (congrFun (shapeCast_self _ shapeCasts_S1x64_S1x64) (ix2 (0 : Fin 1) q)).trans ?_
  refine (addf_apply _ _ (ix2 (0 : Fin 1) q)).trans (congrArg (s (ix2 (0 : Fin 1) q) + ·) ?_)
  refine (shapeCast_a_1a_apply _ shapeCasts_S64_S1x64 (0 : Fin 1) q).trans ?_
  refine (Ideal.multiReduction_add_single y 0x00000000#32 reduces_S5000x64_S64 (.inl rfl) rfl (ix1 q)).trans ?_
  exact Finset.sum_congr rfl fun p _ => congrArg y (funext fun a => match a with | ⟨0, _⟩ => rfl | ⟨1, _⟩ => rfl)

theorem s2_idx : ∀ t : Fin cfg2.N, win2_0.index t (0 : Fin 2) = t.val ∧ win2_0.index t (1 : Fin 2) = 0
    ∧ win2_1.index t (0 : Fin 1) = 0 ∧ win2_2.index t (1 : Fin 2) = 0 :=
  (by decide +kernel : ∀ t : Fin grid2.N, _)

theorem s2_tlt (t : Fin cfg2.N) : t.val < 10 := lt_of_lt_of_eq t.isLt N_2

abbrev s2_xblk (c : Dev nD) (t : Fin cfg2.N) : Vec Ideal S5000x64 .f32 := iblk2 V c 0 t
abbrev s2_bblk (c : Dev nD) (t : Fin cfg2.N) : Vec Ideal S64 .f32 := iblk2 V c 1 t

theorem s2_blk_hrow (c : Dev nD) (t : Fin cfg2.N) (p : Fin 5000) (j : Fin 64) :
    s2_xblk V c t (ix2 p j) + s2_bblk V c t (ix1 j) = s2_hrow V c j (t.val * 5000 + p.val) := by
  obtain ⟨e0, e1, e2, -⟩ := s2_idx t
  have hlt : t.val * 5000 + p.val < 50000 := by have := s2_tlt t; omega
  unfold s2_hrow
  rw [dif_pos hlt]
  refine congrArg₂ (· + ·) ?_ ?_
  · show (V c main_v11 : Vec Ideal S50000x64 .f32) (((cfg2.win 0).blk t).view.emb (ix2 p j)) = V c main_v11 (ix2 ⟨t.val * 5000 + p.val, hlt⟩ j)
    refine congrArg _ (funext fun a => Fin.ext ?_)
    match a with
    | ⟨0, _⟩ => show win2_0.index t (0 : Fin 2) * 5000 + 1 * p.val = t.val * 5000 + p.val; omega
    | ⟨1, _⟩ => show win2_0.index t (1 : Fin 2) * 64 + 1 * j.val = j.val; omega
  · show (V c main_arg8 : Vec Ideal S64 .f32) (((cfg2.win 1).blk t).view.emb (ix1 j)) = V c main_arg8 (ix1 j)
    refine congrArg _ (funext fun a => Fin.ext ?_)
    match a with
    | ⟨0, _⟩ => show win2_1.index t (0 : Fin 1) * 64 + 1 * j.val = j.val; omega

-- One induction serves both rows: φ is the identity for the sums and the square for the sums of squares.
theorem s2_fold (φ : EReal → EReal)
    (pay : Vec Ideal S5000x64 .f32 → Vec Ideal S64 .f32 → Vec Ideal S1x64 .f32 → Vec Ideal S1x64 .f32)
    (z : Vec Ideal S1x64 .f32) (c : Dev nD) (r : (n : ℕ) → n < cfg2.N → Vec Ideal S1x64 .f32)
    (hpay : ∀ x b s q, pay x b s (ix2 (0 : Fin 1) q) = s (ix2 (0 : Fin 1) q) + ∑ p : Fin 5000, φ (x (ix2 p q) + b (ix1 q)))
    (hz : ∀ q, z (ix2 (0 : Fin 1) q) = 0)
    (h0 : ∀ h, r 0 h = pay (s2_xblk V c ⟨0, h⟩) (s2_bblk V c ⟨0, h⟩) z)
    (hs : ∀ n h, r (n + 1) h = pay (s2_xblk V c ⟨n + 1, h⟩) (s2_bblk V c ⟨n + 1, h⟩) (r n (Nat.lt_of_succ_lt h)))
    (j : Fin 64) : ∀ n h, r n h (ix2 (0 : Fin 1) j) = ∑ i ∈ Finset.range ((n + 1) * 5000), φ (s2_hrow V c j i) := by
  have pt : ∀ (t : Fin cfg2.N) (s : Vec Ideal S1x64 .f32), pay (s2_xblk V c t) (s2_bblk V c t) s (ix2 (0 : Fin 1) j)
      = s (ix2 (0 : Fin 1) j) + ∑ i ∈ Finset.range 5000, φ (s2_hrow V c j (t.val * 5000 + i)) := fun t s => by
    rw [hpay, Finset.sum_range]
    exact congrArg (s (ix2 (0 : Fin 1) j) + ·) (Finset.sum_congr rfl fun p _ => congrArg φ (s2_blk_hrow V c t p j))
  intro n
  induction n with
  | zero =>
    intro h
    rw [h0, pt, hz, zero_add]
    show ∑ i ∈ Finset.range 5000, φ (s2_hrow V c j (0 * 5000 + i)) = ∑ i ∈ Finset.range ((0 + 1) * 5000), φ (s2_hrow V c j i)
    simp only [Nat.zero_mul, Nat.zero_add, Nat.one_mul]
  | succ n ih =>
    intro h
    rw [hs, pt, ih, show (n + 1 + 1) * 5000 = (n + 1) * 5000 + 5000 by omega, Finset.sum_range_add]

theorem s2_last (φ : EReal → EReal) (c : Dev nD) (j : Fin 64) :
    ∑ i ∈ Finset.range 50000, φ (s2_hrow V c j i) = ∑ i : Fin 50000, φ (s2_hmat V c i j) := by
  rw [Finset.sum_range]
  exact Finset.sum_congr rfl fun i _ => by unfold s2_hrow; rw [dif_pos i.isLt]

-- The ten blocks of 5000 rows make up the 50000 rows.
theorem s2_acc_last (c : Dev nD) (n : ℕ) (hn : n < cfg2.N) (h9 : n % 10 = 9) :
    row2 (acc2 (F := Ideal) V c n hn).1 = s1 (s2_hmat V c) ∧ row2 (acc2 (F := Ideal) V c n hn).2 = s2 (s2_hmat V c) := by
  obtain rfl : n = 9 := by have := lt_of_lt_of_eq hn N_2; omega
  constructor <;> funext j
  · exact (s2_fold V (fun x => x) (k2_pay4 (F := Ideal)) (k2_pay1 (F := Ideal)) c (fun n h => (acc2 (F := Ideal) V c n h).1)
      (fun x b s q => (s2_rowsum_apply (k2_pay3 x b) s q).trans
        (congrArg (s (ix2 (0 : Fin 1) q) + ·) (Finset.sum_congr rfl fun p _ => s2_pay3_apply x b p q)))
      s2_zero_apply (fun _ => rfl) (fun _ _ => rfl) j 9 hn).trans (s2_last V (fun x => x) c j)
  · exact (s2_fold V (fun x => x * x) (k2_pay5 (F := Ideal)) (k2_pay2 (F := Ideal)) c (fun n h => (acc2 (F := Ideal) V c n h).2)
      (fun x b s q => (s2_rowsum_apply (mulf (k2_pay3 x b) (k2_pay3 x b)) s q).trans
        (congrArg (s (ix2 (0 : Fin 1) q) + ·) (Finset.sum_congr rfl fun p _ =>
          (mulf_apply _ _ (ix2 p q)).trans (by rw [s2_pay3_apply x b p q]))))
      s2_zero_apply (fun _ => rfl) (fun _ _ => rfl) j 9 hn).trans (s2_last V (fun x => x * x) c j)

-- For an output written as a single block.
theorem mem_whole_block {κ : Kind} (b : Ref sig κ) (off size : Fin b.ty.shape.rank → ℕ) (inb : ∀ a, off a + size a ≤ b.ty.shape.size a)
    (h : ∀ a, off a = 0 ∧ size a = b.ty.shape.size a) (i : b.ty.shape.Idx) :
    i ∈ ((View.whole b).slice (Rect.unit off size inb)).set := by
  rw [View.set_slice_whole, Rect.mem_set_unit]
  exact fun a => by rw [(h a).1, (h a).2, Nat.zero_add]; exact ⟨Nat.zero_le _, (i a).isLt⟩

abbrev s2_tlast : Fin cfg2.N := ⟨9, by show 9 < grid2.N; rw [N_2]; decide⟩

-- Serves both outputs: each is written as one block that is the whole 1×64 array.
theorem s2_flushed (X : Vec Ideal S1x64 .f32) (r : Row 64) (hX : row2 X = r) (t : Fin cfg2.N) :
    X = fun y => unrow2 r ((win2_2.rect t).emb y) := by
  obtain ⟨-, -, -, e⟩ := s2_idx t
  subst hX
  funext y
  obtain ⟨u, q, rfl⟩ : ∃ (u : Fin 1) (q : Fin 64), y = ix2 u q := ⟨y 0, y 1, eq_ix2 y⟩
  obtain rfl : u = 0 := Subsingleton.elim _ _
  refine congrArg X (congrArg (ix2 (0 : Fin 1)) (Fin.ext ?_))
  show q.val = win2_2.index t (1 : Fin 2) * 64 + 1 * q.val
  omega

theorem s2_out_zero : ∀ a, win2_2.index s2_tlast a * S1x64.size a = 0 := by decide +kernel

theorem arr2_2 (c : Dev nD) (dat : Dat τ (Elt Ideal) Unit ℕ (UR sig nD τ) ℕ cfg2 c)
    (hA : ∀ w, dat.A w = V c (Pipeline.arrRef spec2 w))
    (h2 : ∀ t : Fin cfg2.N, dat.after 2 t = (acc2 V c t.val t.isLt).1) :
    dat.arrAt 2 cfg2.N = Cert.Spec.unrow2 (Cert.Spec.s1 (Cert.Spec.hb (Cert.Spec.mat (V c main_v11 : Vec Ideal S50000x64 .f32)) (Cert.Spec.row (V c main_arg8 : Vec Ideal S64 .f32)))) := by
  refine dat.arrAt_eq_of_cover 2 (unrow2 (s1 (s2_hmat V c))) (fun t hf => ?_) fun i => ⟨s2_tlast, (flush2_2 s2_tlast).mpr (by decide),
    mem_whole_block main_v12_0 _ _ _ (fun a => ⟨s2_out_zero a, rfl⟩) i⟩
  have hX := (s2_acc_last V c t.val t.isLt ((flush2_2 t).mp hf)).1
  show (cfg2.win 2).cut (grid2.coords t) (dat.after 2 t) = _
  rw [h2 t]
  generalize s1 (s2_hmat V c) = r at hX ⊢
  exact s2_flushed _ r hX t

theorem arr2_3 (c : Dev nD) (dat : Dat τ (Elt Ideal) Unit ℕ (UR sig nD τ) ℕ cfg2 c)
    (hA : ∀ w, dat.A w = V c (Pipeline.arrRef spec2 w))
    (h3 : ∀ t : Fin cfg2.N, dat.after 3 t = (acc2 V c t.val t.isLt).2) :
    dat.arrAt 3 cfg2.N = Cert.Spec.unrow2 (Cert.Spec.s2 (Cert.Spec.hb (Cert.Spec.mat (V c main_v11 : Vec Ideal S50000x64 .f32)) (Cert.Spec.row (V c main_arg8 : Vec Ideal S64 .f32)))) := by
  refine dat.arrAt_eq_of_cover 3 (unrow2 (s2 (s2_hmat V c))) (fun t hf => ?_) fun i => ⟨s2_tlast, (flush2_3 s2_tlast).mpr (by decide),
    mem_whole_block main_v12_1 _ _ _ (fun a => ⟨s2_out_zero a, rfl⟩) i⟩
  have hX := (s2_acc_last V c t.val t.isLt ((flush2_3 t).mp hf)).2
  show (cfg2.win 3).cut (grid2.coords t) (dat.after 3 t) = _
  rw [h3 t]
  generalize s2 (s2_hmat V c) = r at hX ⊢
  exact s2_flushed _ r hX t

end Cert.KernelIdeal.Val

end
-- ==== Proof.KVal3.lean ====
import proofs.«406417_j47201690583086_1_alg».proof.Proof.KVal0

noncomputable section

namespace Cert.KernelIdeal.Val

open Idealize.ShloMosaic Idealize.ShloMosaic.TcCoe Idealize.ShloMosaic.ValueIdx
open Idealize.ShloMosaic.Pipeline (Dat Window)
open Cert.KernelIdeal Cert.KernelIdeal.Gen Cert.KernelIdeal.Hand

variable (V : (c : Dev nD) → (b : Ref sig .tc) → Buf (Elt Ideal) ((c : Thread nD τ).loc b))

abbrev n3_normed (c : Dev nD) : S50000x64.Idx → EReal :=
  Cert.Spec.unmat (Cert.Spec.norm (Cert.Spec.hb (Cert.Spec.mat (V c main_v11)) (Cert.Spec.row (V c main_arg8)))
    (Cert.Spec.row2 (V c main_v14)) (Cert.Spec.row2 (V c main_v21)) (Cert.Spec.row (V c main_arg9)) (Cert.Spec.row (V c main_arg10)))

theorem n3_normed_apply (X : S50000x64.Idx → EReal) (bias : S64.Idx → EReal) (mu inv : S1x64.Idx → EReal) (gamma beta : S64.Idx → EReal)
    (i : S50000x64.Idx) (q : Fin 64) (hq : (i 1).val = q.val) :
    Cert.Spec.unmat (Cert.Spec.norm (Cert.Spec.hb (Cert.Spec.mat X) (Cert.Spec.row bias)) (Cert.Spec.row2 mu) (Cert.Spec.row2 inv)
        (Cert.Spec.row gamma) (Cert.Spec.row beta)) i
      = max ((((X i + bias (ix1 q)) - mu (ix2 (0 : Fin 1) q)) * inv (ix2 (0 : Fin 1) q)) * gamma (ix1 q) + beta (ix1 q)) 0 := by
  obtain ⟨p, q', rfl⟩ : ∃ (p : Fin 50000) (q' : Fin 64), i = ix2 p q' := ⟨i 0, i 1, eq_ix2 i⟩
  obtain rfl : q' = q := Fin.ext hq
  rfl

theorem n3_pay_ix (x : Vec Ideal S5000x64 .f32) (bias : Vec Ideal S64 .f32) (mu inv : Vec Ideal S1x64 .f32) (gamma beta : Vec Ideal S64 .f32)
    (p : Fin 5000) (q : Fin 64) :
    k3_pay1 x bias mu inv gamma beta (ix2 p q)
      = max ((((x (ix2 p q) + bias (ix1 q)) - mu (ix2 (0 : Fin 1) q)) * inv (ix2 (0 : Fin 1) q)) * gamma (ix1 q) + beta (ix1 q)) 0 := by
  unfold k3_pay1
  simp only [shapeCast_self, maximumf_apply, addf_apply, mulf_apply, subf_apply, broadcast_apply, broadcastTo_1b_ab_apply,
    shapeCast_a_1a_apply]
  show max _ (Ideal.ofBits .f32 0x00000000#32) = _
  rw [Ideal.ofBits_zero_f32]

theorem n3_idx_facts : ∀ t : Fin cfg3.N, (∀ a, win3_1.index t a = 0) ∧ (∀ a, win3_2.index t a = 0) ∧ (∀ a, win3_3.index t a = 0)
    ∧ (∀ a, win3_4.index t a = 0) ∧ (∀ a, win3_5.index t a = 0)
    ∧ win3_6.index t (0 : Fin 2) = t.val ∧ win3_6.index t (1 : Fin 2) = 0 :=
  (by decide +kernel : ∀ t : Fin grid3.N, _)

-- Only x varies with the point, and it is blocked as the output is.
theorem n3_flushed_eq (c : Dev nD) (t : Fin cfg3.N) :
    (dat3 (F := Ideal) V c).flushed 6 t = ((cfg3.win 6).blk t).view.read (Elt Ideal) (n3_normed V c) := by
  obtain ⟨h1, h2, h3, h4, h5, e0, e1⟩ := n3_idx_facts t
  show k3_pay1 (iblk3 V c 0 t) (iblk3 V c 1 t) (iblk3 V c 2 t) (iblk3 V c 3 t) (iblk3 V c 4 t) (iblk3 V c 5 t) = _
  rw [show iblk3 V c 1 t = V c main_arg8 from funext fun y => congrArg (V c main_arg8) (funext fun a => Fin.ext (win3_1.rect_emb_val_of_index_zero t a (h1 a) y)),
    show iblk3 V c 2 t = V c main_v14 from funext fun y => congrArg (V c main_v14) (funext fun a => Fin.ext (win3_2.rect_emb_val_of_index_zero t a (h2 a) y)),
    show iblk3 V c 3 t = V c main_v21 from funext fun y => congrArg (V c main_v21) (funext fun a => Fin.ext (win3_3.rect_emb_val_of_index_zero t a (h3 a) y)),
    show iblk3 V c 4 t = V c main_arg9 from funext fun y => congrArg (V c main_arg9) (funext fun a => Fin.ext (win3_4.rect_emb_val_of_index_zero t a (h4 a) y)),
    show iblk3 V c 5 t = V c main_arg10 from funext fun y => congrArg (V c main_arg10) (funext fun a => Fin.ext (win3_5.rect_emb_val_of_index_zero t a (h5 a) y))]
  funext j
  obtain ⟨p, q, rfl⟩ : ∃ (p : Fin 5000) (q : Fin 64), j = ix2 p q := ⟨j 0, j 1, eq_ix2 j⟩
  refine (n3_pay_ix _ _ _ _ _ _ p q).trans (n3_normed_apply (V c main_v11) (V c main_arg8) (V c main_v14) (V c main_v21)
    (V c main_arg9) (V c main_arg10) (((cfg3.win 6).blk t).view.emb (ix2 p q)) q ?_).symm
  show win3_6.index t (1 : Fin 2) * 64 + 1 * q.val = q.val
  omega

theorem arr3_6 (c : Dev nD) : (dat3 (F := Ideal) V c).arrAt 6 cfg3.N
    = Cert.Spec.unmat (Cert.Spec.norm (Cert.Spec.hb (Cert.Spec.mat (V c main_v11)) (Cert.Spec.row (V c main_arg8)))
        (Cert.Spec.row2 (V c main_v14)) (Cert.Spec.row2 (V c main_v21)) (Cert.Spec.row (V c main_arg9)) (Cert.Spec.row (V c main_arg10))) := by
  refine (dat3 (F := Ideal) V c).arrAt_eq_of_cover 6 (n3_normed V c) (fun t _ => n3_flushed_eq V c t) fun i => ?_
  obtain ⟨t, ht⟩ : ∃ t : Fin cfg3.N, t.val = (i 0).val / 5000 :=
    ⟨⟨(i 0).val / 5000, by have := idx2_lt0 i; rw [show cfg3.N = 10 from N_3]; omega⟩, rfl⟩
  obtain ⟨-, -, -, -, -, e0, e1⟩ := n3_idx_facts t
  refine ⟨t, flush3_6 t, ?_⟩
  show i ∈ ((View.whole main_v22).slice (win3_6.rect t)).set
  rw [View.set_slice_whole]
  exact mem_rect_of_div win3_6 t i
    (fun a => match a with | ⟨0, _⟩ => e0.trans ht | ⟨1, _⟩ => e1.trans (Nat.div_eq_of_lt (idx2_lt1 i)).symm) (by decide) fun _ => rfl

end Cert.KernelIdeal.Val

end
-- ==== Proof.KGraph.lean ====
import proofs.«406417_j47201690583086_1_alg».proof.KernelIdeal
import proofs.«406417_j47201690583086_1_alg».proof.Proof.Spec
import Idealize.ShloMosaic.PureOps.Ideal
import Idealize.ShloMosaic.PureOps.Ideal.Laws
import Idealize.ShloMosaic.Lib.ValueIdx

noncomputable section

namespace Cert.Graph

open Idealize.ShloMosaic Idealize.ShloMosaic.ValueIdx
open Cert.KernelIdeal

variable [Facts₀]
open Facts₀

def srcRow (ei : IVec S2x800000 32) : IVec S800000 32 :=
  shapeCast S800000 (extractStridedSlice S1x800000 ![0, 0] ei slices_S2x800000_S1x800000_0_0) shapeCasts_S1x800000_S800000

def dstRow (ei : IVec S2x800000 32) : IVec S800000 32 :=
  shapeCast S800000 (extractStridedSlice S1x800000 ![1, 0] ei slices_S2x800000_S1x800000_1_0) shapeCasts_S1x800000_S800000

def wrapRow (r : IVec S800000 32) : IVec S800000x1 32 :=
  broadcastInDim S800000x1 ![0] bcast_S800000_S800000x1_0
    (select (cmpi .slt r (broadcastInDim S800000 ![] bcast_S_S800000 (constantI S_ 32 0#32)))
      (addi r (broadcastInDim S800000 ![] bcast_S_S800000 (constantI S_ 32 50000#32))) r)

def takeRows (A : FVec Ideal S50000x64 .f32) (r : IVec S800000 32) : FVec Ideal S800000x64 .f32 :=
  Host.gather gather_S50000x64_S800000x1_S800000x64_1_0_n_n_0_1_164 A (wrapRow r)

def aggOf (dst : IVec S800000 32) (msg : FVec Ideal S800000x64 .f32) : FVec Ideal S50000x64 .f32 :=
  Host.scatterAdd (F := Ideal) scatter_S50000x64_S800000x1_S800000x64_1_0_0_1
    (broadcastInDim S50000x64 ![] bcast_S_S50000x64 (constant (F := Ideal) S_ .f32 0x00000000#32))
    (broadcastInDim S800000x1 ![0] bcast_S800000_S800000x1_0 dst) msg

def nn : EReal := Ideal.ofBits .f32 0x47435000#32
def eps : EReal := Ideal.ofBits .f32 0x3727C5AC#32

def projOf (feature : FVec Ideal S50000x64 .f32) (W : FVec Ideal S64x64 .f32) (b : FVec Ideal S64 .f32) :
    FVec Ideal S50000x64 .f32 :=
  Cert.Spec.unmat (Cert.Spec.proj (Cert.Spec.mat feature) (Cert.Spec.mat W) (Cert.Spec.row b))

def msgOf (ei : IVec S2x800000 32) (K Q Vv : FVec Ideal S50000x64 .f32) : FVec Ideal S800000x64 .f32 :=
  Cert.Spec.unmat (Cert.Spec.gate (Cert.Spec.mat (takeRows K (dstRow ei))) (Cert.Spec.mat (takeRows Q (srcRow ei)))
    (Cert.Spec.mat (takeRows Vv (srcRow ei))))

def hOf (feature : FVec Ideal S50000x64 .f32) (ei : IVec S2x800000 32)
    (Wk : FVec Ideal S64x64 .f32) (bk : FVec Ideal S64 .f32) (Wq : FVec Ideal S64x64 .f32) (bq : FVec Ideal S64 .f32)
    (Wv : FVec Ideal S64x64 .f32) (bv : FVec Ideal S64 .f32) (bias : FVec Ideal S64 .f32) : Cert.Spec.Mat 50000 64 :=
  Cert.Spec.hb (Cert.Spec.mat (aggOf (dstRow ei)
    (msgOf ei (projOf feature Wk bk) (projOf feature Wq bq) (projOf feature Wv bv)))) (Cert.Spec.row bias)

theorem takeRows_entry (A : FVec Ideal S50000x64 .f32) (r : IVec S800000 32) (i : S800000x64.Idx) :
    ∃ i', takeRows A r i = A i' :=
  ⟨gather_S50000x64_S800000x1_S800000x64_1_0_n_n_0_1_164.operandIdx i (wrapRow r), rfl⟩

theorem scatterAdd_apply {s si su : Shape} {w : Nat} (d : ScatterDims s si su) (x : FVec Ideal s .f32) (idx : IVec si w)
    (upd : FVec Ideal su .f32) (i : s.Idx) :
    Host.scatterAdd (F := Ideal) d x idx upd i
      = x i + ∑ j ∈ Finset.univ.filter (fun j => d.resultIdx? j idx = some i), upd j := rfl

theorem bcast_const {t : Shape} (h : S_.BroadcastsInDim t (![] : Fin 0 → Fin t.rank)) (b : BitVec 32) (i : t.Idx) :
    broadcastInDim t ![] h (constant (F := Ideal) S_ .f32 b) i = Ideal.ofBits .f32 b := rfl

theorem aggOf_apply (dst : IVec S800000 32) (msg : FVec Ideal S800000x64 .f32) (i : S50000x64.Idx) :
    aggOf dst msg i = Ideal.ofBits .f32 0x00000000#32
      + ∑ j ∈ Finset.univ.filter (fun j => scatter_S50000x64_S800000x1_S800000x64_1_0_0_1.resultIdx? j
          (broadcastInDim S800000x1 ![0] bcast_S800000_S800000x1_0 dst) = some i), msg j := by
  refine (scatterAdd_apply _ _ _ _ i).trans ?_
  rw [bcast_const]

end Cert.Graph

end
-- ==== Proof.KTake.lean ====
import proofs.«406417_j47201690583086_1_alg».proof.Proof.Gen.KernelIdeal.Launch
import proofs.«406417_j47201690583086_1_alg».proof.Proof.KGraph
import Idealize.ShloMosaic.Lib.StableHlo.Run
import Idealize.ShloMosaic.Lib.Affine

noncomputable section

namespace Cert.Graph

open Idealize.ShloMosaic Idealize.ShloMosaic.TcCoe Idealize.ShloMosaic.ValueIdx
open Idealize.ShloMosaic.StableHlo
open Cert.KernelIdeal

variable [Facts₀]
open Facts₀

def inRange (r : IVec S800000 32) : IVec S800000 1 :=
  Host.reduce IntOp.andi
    (andi (cmpi .sge (wrapRow r) (broadcastInDim S800000x1 ![] bcast_S_S800000x1 (constantI S_ 32 0#32)))
      (cmpi .sle (wrapRow r) (broadcastInDim S800000x1 ![0, 1] bcast_S1x1_S800000x1_0_1
        (broadcastInDim S1x1 ![1] bcast_S1_S1x1_1 (constantI S1 32 49999#32)))))
    (constantI S_ 1 1#1) reducesTo_S800000x1_S800000_d1 h_S_

def fill : FVec Ideal S800000x64 .f32 :=
  broadcastInDim S800000x64 ![] bcast_S_S800000x64 (constant (F := Ideal) S_ .f32 0x7FC00000#32)

def takeTerm (A : FVec Ideal S50000x64 .f32) (r : IVec S800000 32) : FVec Ideal S800000x64 .f32 :=
  select (broadcastInDim S800000x64 ![0] bcast_S800000_S800000x64_0 (inRange r)) (takeRows A r) fill

section
variable (W : Valuation τ sig (Elt Ideal))
attribute [local irreducible] Host.reduce Host.gather

theorem m5 : after Gen.hostOps1 W (Proc.devRef .tc main_call0_v12) = inRange (W (Proc.devRef .tc main_v3)) := by
  after_results_simp <;> rfl
theorem g5 : after Gen.hostOps1 W (Proc.devRef .tc main_call0_v13)
    = takeRows (W (Proc.devRef .tc main_v4_0)) (W (Proc.devRef .tc main_v3)) := by
  after_results_simp <;> rfl
theorem b5 : after Gen.hostOps1 W (Proc.devRef .tc main_call0_v14)
    = broadcastInDim S800000x64 ![0] bcast_S800000_S800000x64_0 (after Gen.hostOps1 W (Proc.devRef .tc main_call0_v12)) := by
  after_results_simp <;> rfl
theorem f5 : after Gen.hostOps1 W (Proc.devRef .tc main_call0_v15) = fill := by
  after_results_simp <;> rfl
theorem o5 : after Gen.hostOps1 W (Proc.devRef .tc main_v5) = select (after Gen.hostOps1 W (Proc.devRef .tc main_call0_v14))
    (after Gen.hostOps1 W (Proc.devRef .tc main_call0_v13)) (after Gen.hostOps1 W (Proc.devRef .tc main_call0_v15)) := by
  after_results_simp <;> rfl
theorem take5 : after Gen.hostOps1 W (Proc.devRef .tc main_v5)
    = takeTerm (W (Proc.devRef .tc main_v4_0)) (W (Proc.devRef .tc main_v3)) := by
  rw [o5, b5, f5, m5, g5]; rfl

theorem m6 : after Gen.hostOps1_1 W (Proc.devRef .tc main_call1_v12) = inRange (W (Proc.devRef .tc main_v1)) := by
  after_results_simp <;> rfl
theorem g6 : after Gen.hostOps1_1 W (Proc.devRef .tc main_call1_v13)
    = takeRows (W (Proc.devRef .tc main_v4_1)) (W (Proc.devRef .tc main_v1)) := by
  after_results_simp <;> rfl
theorem b6 : after Gen.hostOps1_1 W (Proc.devRef .tc main_call1_v14)
    = broadcastInDim S800000x64 ![0] bcast_S800000_S800000x64_0 (after Gen.hostOps1_1 W (Proc.devRef .tc main_call1_v12)) := by
  after_results_simp <;> rfl
theorem f6 : after Gen.hostOps1_1 W (Proc.devRef .tc main_call1_v15) = fill := by
  after_results_simp <;> rfl
theorem o6 : after Gen.hostOps1_1 W (Proc.devRef .tc main_v6) = select (after Gen.hostOps1_1 W (Proc.devRef .tc main_call1_v14))
    (after Gen.hostOps1_1 W (Proc.devRef .tc main_call1_v13)) (after Gen.hostOps1_1 W (Proc.devRef .tc main_call1_v15)) := by
  after_results_simp <;> rfl
theorem take6 : after Gen.hostOps1_1 W (Proc.devRef .tc main_v6)
    = takeTerm (W (Proc.devRef .tc main_v4_1)) (W (Proc.devRef .tc main_v1)) := by
  rw [o6, b6, f6, m6, g6]; rfl

theorem m7 : after Gen.hostOps1_2 W (Proc.devRef .tc main_call2_v12) = inRange (W (Proc.devRef .tc main_v1)) := by
  after_results_simp <;> rfl
theorem g7 : after Gen.hostOps1_2 W (Proc.devRef .tc main_call2_v13)
    = takeRows (W (Proc.devRef .tc main_v4_2)) (W (Proc.devRef .tc main_v1)) := by
  after_results_simp <;> rfl
theorem b7 : after Gen.hostOps1_2 W (Proc.devRef .tc main_call2_v14)
    = broadcastInDim S800000x64 ![0] bcast_S800000_S800000x64_0 (after Gen.hostOps1_2 W (Proc.devRef .tc main_call2_v12)) := by
  after_results_simp <;> rfl
theorem f7 : after Gen.hostOps1_2 W (Proc.devRef .tc main_call2_v15) = fill := by
  after_results_simp <;> rfl
theorem o7 : after Gen.hostOps1_2 W (Proc.devRef .tc main_v7) = select (after Gen.hostOps1_2 W (Proc.devRef .tc main_call2_v14))
    (after Gen.hostOps1_2 W (Proc.devRef .tc main_call2_v13)) (after Gen.hostOps1_2 W (Proc.devRef .tc main_call2_v15)) := by
  after_results_simp <;> rfl
theorem take7 : after Gen.hostOps1_2 W (Proc.devRef .tc main_v7)
    = takeTerm (W (Proc.devRef .tc main_v4_2)) (W (Proc.devRef .tc main_v1)) := by
  rw [o7, b7, f7, m7, g7]; rfl
end

theorem fold_andi_one {ι : Type} [DecidableEq ι] (S : Finset ι) (f : ι → BitVec 1) (hf : ∀ k ∈ S, f k = 1#1) :
    S.fold IntOp.andi 1#1 f = 1#1 := by
  induction S using Finset.induction_on with
  | empty => rfl
  | insert a S ha ih =>
    rw [Finset.fold_insert ha, hf a (Finset.mem_insert_self _ _), ih fun k hk => hf k (Finset.mem_insert_of_mem hk)]
    rfl

theorem wrap_mask (x : BitVec 32) (h : (-50000 : ℤ) ≤ x.toInt ∧ x.toInt < 50000) :
    IntOp.andi (IntOp.cmpi .sge (Scalar.select (IntOp.cmpi .slt x 0#32) (IntOp.addi x 50000#32) x) 0#32)
      (IntOp.cmpi .sle (Scalar.select (IntOp.cmpi .slt x 0#32) (IntOp.addi x 50000#32) x) 49999#32) = 1#1 := by
  have h0 : (0#32 : BitVec 32).toInt = 0 := by decide
  rw [IntOp.andi_eq_one, IntOp.cmpi_sge, IntOp.cmpi_sle, h0, show (49999#32 : BitVec 32).toInt = 49999 from by decide]
  by_cases hx : x.toInt < 0
  · rw [IntOp.cmpi_slt.mpr (by rwa [h0]), select_one]
    have e : (IntOp.addi x 50000#32).toInt = x.toInt + 50000 := by
      show (x + 50000#32).toInt = _
      rw [BitVec.toInt_add, show (50000#32 : BitVec 32).toInt = 50000 from by decide]
      exact Int.bmod_eq_of_le (by omega) (by omega)
    rw [e]; omega
  · have hc : IntOp.cmpi .slt x 0#32 = 0#1 := eq_zero_of_ne_one fun e => hx (by rwa [IntOp.cmpi_slt, h0] at e)
    rw [hc, select_zero]; omega

theorem col_apply {α : Type} (x : S800000.Idx → α) (i : S800000x1.Idx) :
    broadcastInDim S800000x1 ![0] bcast_S800000_S800000x1_0 x i = x (ix1 (i 0)) :=
  congrArg x (funext fun | ⟨0, _⟩ => rfl)

theorem wrapRow_at (r : IVec S800000 32) (i : S800000x1.Idx) :
    wrapRow r i = Scalar.select (IntOp.cmpi .slt (r (ix1 (i 0))) 0#32) (IntOp.addi (r (ix1 (i 0))) 50000#32) (r (ix1 (i 0))) := by
  unfold wrapRow
  rw [col_apply]
  rfl

theorem inRange_one_at (r : IVec S800000 32) (e : Fin 800000)
    (he : (-50000 : ℤ) ≤ (r (ix1 e)).toInt ∧ (r (ix1 e)).toInt < 50000) : inRange r (ix1 e) = 1#1 := by
  unfold inRange
  rw [Host.reduce_eq_fold_single IntOp.andi _ _ reducesTo_S800000x1_S800000_d1 (by decide : S800000x1.Reduces [1] S800000) h_S_ (ix1 e)]
  refine fold_andi_one _ _ fun k _ => ?_
  show IntOp.andi (IntOp.cmpi .sge (wrapRow r _) 0#32) (IntOp.cmpi .sle (wrapRow r _) 49999#32) = 1#1
  rw [wrapRow_at]
  exact wrap_mask _ he

theorem takeTerm_apply (A : FVec Ideal S50000x64 .f32) (r : IVec S800000 32) (e : Fin 800000) (j : Fin 64)
    (he : (-50000 : ℤ) ≤ (r (ix1 e)).toInt ∧ (r (ix1 e)).toInt < 50000) :
    takeTerm A r (ix2 e j) = takeRows A r (ix2 e j) := by
  have h0 : broadcastInDim S800000x64 ![0] bcast_S800000_S800000x64_0 (inRange r) (ix2 e j) = inRange r (ix1 e) :=
    congrArg (inRange r) (funext fun | ⟨0, _⟩ => rfl)
  unfold takeTerm
  rw [select_apply, h0, inRange_one_at r e he, select_one]

theorem takeTerm_eq (A : FVec Ideal S50000x64 .f32) (r : IVec S800000 32)
    (hr : ∀ i, (-50000 : ℤ) ≤ (r i).toInt ∧ (r i).toInt < 50000) : takeTerm A r = takeRows A r :=
  funext fun i => by rw [eq_ix2 i]; exact takeTerm_apply A r _ _ (hr _)

end Cert.Graph

end
-- ==== Proof.KScat.lean ====
import proofs.«406417_j47201690583086_1_alg».proof.Proof.KGraph
import Idealize.ShloMosaic.Lib.ValueIdx

noncomputable section

namespace Cert.Graph

open Idealize.ShloMosaic Idealize.ShloMosaic.ValueIdx
open Cert.KernelIdeal

variable [Facts₀]
open Facts₀

theorem sc_bound (dst : IVec S800000 32) (j : S800000x64.Idx) (i : S50000x64.Idx)
    (hj : scatter_S50000x64_S800000x1_S800000x64_1_0_0_1.resultIdx? j
      (broadcastInDim S800000x1 ![0] bcast_S800000_S800000x1_0 dst) = some i) :
    (0 : ℤ) ≤ (dst (ix1 (j 0))).toInt ∧ (dst (ix1 (j 0))).toInt < 50000 := by
  have hw : scatter_S50000x64_S800000x1_S800000x64_1_0_0_1.window j (0 : Fin S50000x64.rank) = 0 :=
    dif_neg (show (0 : Fin S50000x64.rank) ∉ S50000x64.kept [0] from by decide)
  have hs : scatter_S50000x64_S800000x1_S800000x64_1_0_0_1.start j
      (broadcastInDim S800000x1 ![0] bcast_S800000_S800000x1_0 dst) (0 : Fin S50000x64.rank) = (dst (ix1 (j 0))).toInt :=
    (dif_pos (show (0 : Fin S50000x64.rank) ∈ ([0] : List (Fin S50000x64.rank)) from by decide)).trans
      (congrArg (fun k => (dst k).toInt) (funext fun | ⟨0, _⟩ => rfl))
  unfold ScatterDims.resultIdx? at hj
  split at hj
  · rename_i hb
    have hb0 := hb (0 : Fin S50000x64.rank)
    rw [hs, hw, show S50000x64.size (0 : Fin S50000x64.rank) = 50000 from rfl] at hb0
    omega
  · exact absurd hj (by simp)

theorem aggOf_congr (dst : IVec S800000 32) (msg msg' : FVec Ideal S800000x64 .f32)
    (h : ∀ (e : Fin 800000) (j : Fin 64), (0 : ℤ) ≤ (dst (ix1 e)).toInt → (dst (ix1 e)).toInt < 50000 →
      msg (ix2 e j) = msg' (ix2 e j)) :
    aggOf dst msg = aggOf dst msg' := by
  funext i
  rw [aggOf_apply, aggOf_apply]
  refine congrArg (Ideal.ofBits .f32 0x00000000#32 + ·) (Finset.sum_congr rfl fun j hj => ?_)
  obtain ⟨hlo, hhi⟩ := sc_bound dst j i (Finset.mem_filter.mp hj).2
  rw [eq_ix2 j]
  exact h (j 0) (j 1) hlo hhi

end Cert.Graph

end
-- ==== Proof.KStretch.lean ====
import proofs.«406417_j47201690583086_1_alg».proof.Proof.Gen.KernelIdeal.Launch
import proofs.«406417_j47201690583086_1_alg».proof.Proof.KGraph
import Idealize.ShloMosaic.Lib.StableHlo.Run

noncomputable section

namespace Cert.KernelIdeal.Val

open Idealize.ShloMosaic Idealize.ShloMosaic.TcCoe
open Cert.KernelIdeal Cert.KernelIdeal.Gen Cert.Graph Cert.Spec

variable [Cert.KernelIdeal.Facts₀] (W : Valuation τ sig (Elt Ideal))

theorem host0_src : StableHlo.after hostOps0 W (Proc.devRef .tc main_v1) = srcRow (W (Proc.devRef .tc main_arg1)) := by
  after_results; rfl

theorem host0_dst : StableHlo.after hostOps0 W (Proc.devRef .tc main_v3) = dstRow (W (Proc.devRef .tc main_arg1)) := by
  after_results; rfl

theorem host2_agg : StableHlo.after hostOps2 W (Proc.devRef .tc main_v11)
    = aggOf (W (Proc.devRef .tc main_v3)) (W (Proc.devRef .tc main_v8)) := by
  after_results; rfl

section
variable (h : Mat 50000 64) (h1 : W (Proc.devRef .tc main_v12_0) = unrow2 (s1 h))
  (h2 : W (Proc.devRef .tc main_v12_1) = unrow2 (s2 h))
include h1 h2

theorem host3_mean : row2 (StableHlo.after hostOps3 W (Proc.devRef .tc main_v14)) = mean nn h := by
  after_results; rw [h1]; rfl

theorem host3_inv : row2 (StableHlo.after hostOps3 W (Proc.devRef .tc main_v21)) = invstd (varK nn h) eps := by
  after_results; rw [h1, h2]; rfl
end

end Cert.KernelIdeal.Val

end
-- ==== Proof.KHost.lean ====
import proofs.«406417_j47201690583086_1_alg».proof.Proof.Fold
import proofs.«406417_j47201690583086_1_alg».proof.Proof.KVal0
import proofs.«406417_j47201690583086_1_alg».proof.Proof.KVal1
import proofs.«406417_j47201690583086_1_alg».proof.Proof.KVal2
import proofs.«406417_j47201690583086_1_alg».proof.Proof.KVal3
import proofs.«406417_j47201690583086_1_alg».proof.Proof.KTake
import proofs.«406417_j47201690583086_1_alg».proof.Proof.KScat
import proofs.«406417_j47201690583086_1_alg».proof.Proof.KStretch

noncomputable section

namespace Cert.KernelIdeal.Val

open Idealize.ShloMosaic Idealize.ShloMosaic.TcCoe Idealize.ShloMosaic.ValueIdx
open Idealize.SL Idealize.SL.Sem
open Cert.KernelIdeal Cert.KernelIdeal.Gen Cert.KernelIdeal.Hand Cert.Graph Cert.Spec

variable (m : (ℓ : Loc nD τ sig) → Buf (Elt Ideal) ℓ) (c : Dev nD)

abbrev featureA : FVec Ideal S50000x64 .f32 := m ((c : Thread nD τ).loc main_arg0)
abbrev eiA : IVec S2x800000 32 := m ((c : Thread nD τ).loc main_arg1)
abbrev WkA : FVec Ideal S64x64 .f32 := m ((c : Thread nD τ).loc main_arg2)
abbrev bkA : FVec Ideal S64 .f32 := m ((c : Thread nD τ).loc main_arg3)
abbrev WqA : FVec Ideal S64x64 .f32 := m ((c : Thread nD τ).loc main_arg4)
abbrev bqA : FVec Ideal S64 .f32 := m ((c : Thread nD τ).loc main_arg5)
abbrev WvA : FVec Ideal S64x64 .f32 := m ((c : Thread nD τ).loc main_arg6)
abbrev bvA : FVec Ideal S64 .f32 := m ((c : Thread nD τ).loc main_arg7)
abbrev biasA : FVec Ideal S64 .f32 := m ((c : Thread nD τ).loc main_arg8)
abbrev gammaA : FVec Ideal S64 .f32 := m ((c : Thread nD τ).loc main_arg9)
abbrev betaA : FVec Ideal S64 .f32 := m ((c : Thread nD τ).loc main_arg10)

abbrev srcA := srcRow (eiA m c)
abbrev dstA := dstRow (eiA m c)
abbrev KA := projOf (featureA m c) (WkA m c) (bkA m c)
abbrev QA := projOf (featureA m c) (WqA m c) (bqA m c)
abbrev VA := projOf (featureA m c) (WvA m c) (bvA m c)

abbrev hA : Mat 50000 64 :=
  hOf (featureA m c) (eiA m c) (WkA m c) (bkA m c) (WqA m c) (bqA m c) (WvA m c) (bvA m c) (biasA m c)

namespace KH

theorem args (r : Ref sig .tc) (h : Unwritten r) :
    Y1 m c r = m ((c : Thread nD τ).loc r) ∧ Y7 m c r = m ((c : Thread nD τ).loc r)
      ∧ Y9 m c r = m ((c : Thread nD τ).loc r) := by
  obtain ⟨h0, h1, h2, h3, h4, h5, h6, h7, h8, _⟩ := h
  have e1 := X1_keep m c r h0
  have e7 := (X7_keep m c r h6).trans <| (X6_keep m c r h5).trans <| (X5_keep m c r h4).trans <|
    (X4_keep m c r h3).trans <| (X3_keep m c r h2).trans <| (X2_keep m c r h1).trans e1
  exact ⟨e1, e7, (X9_keep m c r h8).trans <| (X8_keep m c r h7).trans e7⟩

theorem x2_src : X2 m c (Proc.devRef .tc main_v1) = srcA m c := (X2_keep m c main_v1 (by decide)).trans (host0_src _)
theorem x2_dst : X2 m c (Proc.devRef .tc main_v3) = dstA m c := (X2_keep m c main_v3 (by decide)).trans (host0_dst _)

theorem x2_K : X2 m c (Proc.devRef .tc main_v4_0) = KA m c := by
  refine (X2_arr m c 7).trans ((arr0_7 (Y1 m) c).trans ?_)
  rw [(args m c main_arg0 (by decide)).1, (args m c main_arg2 (by decide)).1, (args m c main_arg3 (by decide)).1]
  rfl
theorem x2_Q : X2 m c (Proc.devRef .tc main_v4_1) = QA m c := by
  refine (X2_arr m c 8).trans ((arr0_8 (Y1 m) c).trans ?_)
  rw [(args m c main_arg0 (by decide)).1, (args m c main_arg4 (by decide)).1, (args m c main_arg5 (by decide)).1]
  rfl
theorem x2_V : X2 m c (Proc.devRef .tc main_v4_2) = VA m c := by
  refine (X2_arr m c 9).trans ((arr0_9 (Y1 m) c).trans ?_)
  rw [(args m c main_arg0 (by decide)).1, (args m c main_arg6 (by decide)).1, (args m c main_arg7 (by decide)).1]
  rfl

theorem y5_kd : Y5 m c main_v5 = takeTerm (KA m c) (dstA m c) := by
  refine (X5_keep m c main_v5 (by decide)).trans <| (X4_keep m c main_v5 (by decide)).trans <| (take5 (X2 m c)).trans ?_
  rw [x2_K m c, x2_dst m c]

theorem x6_dst : X6 m c (Proc.devRef .tc main_v3) = dstA m c :=
  (X6_keep m c main_v3 (by decide)).trans <| (X5_keep m c main_v3 (by decide)).trans <|
    (X4_keep m c main_v3 (by decide)).trans <| (X3_keep m c main_v3 (by decide)).trans (x2_dst m c)

def msgK (ei : IVec S2x800000 32) (K Q Vv : FVec Ideal S50000x64 .f32) : FVec Ideal S800000x64 .f32 :=
  unmat (gate (mat (takeTerm K (dstRow ei))) (mat (takeRows Q (srcRow ei))) (mat (takeRows Vv (srcRow ei))))

-- A destination that names a node lies in −50000 … 49999, so its K row is unguarded; any other edge's row is added nowhere.
theorem agg_msgK (ei : IVec S2x800000 32) (K Q Vv : FVec Ideal S50000x64 .f32) :
    aggOf (dstRow ei) (msgK ei K Q Vv) = aggOf (dstRow ei) (msgOf ei K Q Vv) := by
  refine aggOf_congr _ _ _ fun e j h0 h1 => ?_
  show Ideal.logistic (takeTerm K (dstRow ei) (ix2 e j) + _) * _ = Ideal.logistic (takeRows K (dstRow ei) (ix2 e j) + _) * _
  rw [takeTerm_apply K (dstRow ei) e j ⟨le_trans (by decide) h0, h1⟩]

section
variable (hr : ∀ e, (-50000 : ℤ) ≤ (srcRow (eiA m c) e).toInt ∧ (srcRow (eiA m c) e).toInt < 50000)
include hr

theorem y5_qs : Y5 m c main_v6 = takeRows (QA m c) (srcA m c) := by
  refine (X5_keep m c main_v6 (by decide)).trans <| (take6 (X3 m c)).trans ?_
  rw [X3_keep m c main_v4_1 (by decide), X3_keep m c main_v1 (by decide), x2_Q m c, x2_src m c]
  exact takeTerm_eq _ _ hr
theorem y5_vs : Y5 m c main_v7 = takeRows (VA m c) (srcA m c) := by
  refine (take7 (X4 m c)).trans ?_
  rw [X4_keep m c main_v4_2 (by decide), X3_keep m c main_v4_2 (by decide), X4_keep m c main_v1 (by decide),
    X3_keep m c main_v1 (by decide), x2_V m c, x2_src m c]
  exact takeTerm_eq _ _ hr

theorem x6_msg : X6 m c (Proc.devRef .tc main_v8) = msgK (eiA m c) (KA m c) (QA m c) (VA m c) := by
  refine (X6_arr m c 3).trans ((arr1_3 (Y5 m) c).trans ?_)
  rw [y5_kd m c, y5_qs m c hr, y5_vs m c hr]
  rfl

theorem y7_agg : Y7 m c main_v11 = aggOf (dstA m c) (msgOf (eiA m c) (KA m c) (QA m c) (VA m c)) := by
  refine (host2_agg (X6 m c)).trans ?_
  rw [x6_dst m c, x6_msg m c hr]
  exact agg_msgK _ _ _ _

theorem h7 : hb (mat (Y7 m c main_v11)) (row (Y7 m c main_arg8)) = hA m c := by
  rw [y7_agg m c hr, (args m c main_arg8 (by decide)).2.1]
  rfl

theorem x8_s1 : X8 m c (Proc.devRef .tc main_v12_0) = unrow2 (s1 (hA m c)) := by
  refine (X8_arr m c 2).trans ((arr2_2 (Y7 m) c (dat2 (Y7 m) c) (A_eq2 (Y7 m) c) (after2_2 (Y7 m) c)).trans ?_)
  rw [h7 m c hr]
theorem x8_s2 : X8 m c (Proc.devRef .tc main_v12_1) = unrow2 (s2 (hA m c)) := by
  refine (X8_arr m c 3).trans ((arr2_3 (Y7 m) c (dat2 (Y7 m) c) (A_eq2 (Y7 m) c) (after2_3 (Y7 m) c)).trans ?_)
  rw [h7 m c hr]

theorem h9 : hb (mat (Y9 m c main_v11)) (row (Y9 m c main_arg8)) = hA m c := by
  rw [show Y9 m c main_v11 = _ from
      (X9_keep m c main_v11 (by decide)).trans ((X8_keep m c main_v11 (by decide)).trans (y7_agg m c hr)),
    (args m c main_arg8 (by decide)).2.2]
  rfl

end

end KH

open KH

theorem kernel_value
    (hr : ∀ e, (-50000 : ℤ) ≤ (srcRow (eiA m c) e).toInt ∧ (srcRow (eiA m c) e).toInt < 50000) :
    X10 (F := Ideal) m c (Proc.devRef .tc main_v22)
      = unmat (out (varK nn (hA m c)) nn eps (hA m c) (row (gammaA m c)) (row (betaA m c))) := by
  refine (X10_arr m c 6).trans ((arr3_6 (Y9 m) c).trans ?_)
  rw [h9 m c hr, show row2 (Y9 m c main_v14) = _ from host3_mean (X8 m c) _ (x8_s1 m c hr) (x8_s2 m c hr),
    show row2 (Y9 m c main_v21) = _ from host3_inv (X8 m c) _ (x8_s1 m c hr) (x8_s2 m c hr),
    (args m c main_arg9 (by decide)).2.2, (args m c main_arg10 (by decide)).2.2]
  rfl

end Cert.KernelIdeal.Val

end
-- ==== Proof.RStats.lean ====
import proofs.«406417_j47201690583086_1_alg».proof.ReferenceIdeal
import proofs.«406417_j47201690583086_1_alg».proof.Proof.Spec
import proofs.«406417_j47201690583086_1_alg».proof.Proof.KGraph
import Idealize.ShloMosaic.Lib.ValueIdx
import Idealize.ShloMosaic.Lib.IdealHost
import Idealize.ShloMosaic.Lib.KernelVsHost
import Idealize.ShloMosaic.PureOps.Ideal.Laws
import Mathlib.Tactic.NormNum

noncomputable section

namespace Cert.ReferenceIdeal.Val

open Cert.ReferenceIdeal Idealize.ShloMosaic Idealize.ShloMosaic.ValueIdx

variable [Facts₀]
open Facts₀

def zeroC : FVec Ideal S_ .f32 := constant (F := Ideal) S_ .f32 0x00000000#32
def nnC : FVec Ideal S_ .f32 := constant (F := Ideal) S_ .f32 0x47435000#32

def overRows (v : FVec Ideal S64 .f32) : FVec Ideal S50000x64 .f32 :=
  broadcastInDim S50000x64 ![0, 1] bcast_S1x64_S50000x64_0_1 (broadcastInDim S1x64 ![1] bcast_S64_S1x64_1 v)

def colSum (x : FVec Ideal S50000x64 .f32) : FVec Ideal S64 .f32 :=
  Host.reduceAdd x zeroC reducesTo_S50000x64_S64_d0 h_S_

def meanOf (hv : FVec Ideal S50000x64 .f32) : FVec Ideal S64 .f32 :=
  Host.divf (colSum hv) (broadcastInDim S64 ![] bcast_S_S64 nnC)

def count : FVec Ideal S_ .f32 := subf nnC (sitofp .f32 (constantI S_ 32 0#32))

-- The variance subtracts its own copy of the mean, divided while still a single row.
def centred (hv : FVec Ideal S50000x64 .f32) : FVec Ideal S50000x64 .f32 :=
  subf hv (broadcastInDim S50000x64 ![0, 1] bcast_S1x64_S50000x64_0_1
    (Host.divf (broadcastInDim S1x64 ![1] bcast_S64_S1x64_1 (colSum hv)) (broadcastInDim S1x64 ![] bcast_S_S1x64 nnC)))

def varOf (hv : FVec Ideal S50000x64 .f32) : FVec Ideal S64 .f32 :=
  select (broadcastInDim S64 ![] bcast_S_S64 (cmpf .ogt count zeroC))
    (Host.divf (colSum (mulf (centred hv) (centred hv))) (broadcastInDim S64 ![] bcast_S_S64 count))
    (broadcastInDim S64 ![] bcast_S_S64 (id (constant (F := Ideal) S_ .f32 0x7FC00000#32)))

def invstdOf (hv : FVec Ideal S50000x64 .f32) : FVec Ideal S64 .f32 :=
  Host.rsqrt (addf (varOf hv) (broadcastInDim S64 ![] bcast_S_S64 (constant (F := Ideal) S_ .f32 0x3727C5AC#32)))

def tail (hv : FVec Ideal S50000x64 .f32) (gamma beta : FVec Ideal S64 .f32) : FVec Ideal S50000x64 .f32 :=
  maximumf
    (addf (mulf (mulf (subf hv (overRows (meanOf hv))) (overRows (invstdOf hv))) (overRows gamma)) (overRows beta))
    (broadcastInDim S50000x64 ![] bcast_S_S50000x64 zeroC)

-- Two rank-2 arrays agree when they agree at every pair of coordinates.
theorem ext2 {α : Type} {a b : ℕ} {f g : (⟨2, ![a, b]⟩ : Shape).Idx → α} (h : ∀ p q, f (ix2 p q) = g (ix2 p q)) : f = g :=
  funext fun i => by rw [eq_ix2 i]; exact h _ _

theorem nn_eq : Cert.Graph.nn = ((50000 : ℝ) : EReal) := by
  unfold Cert.Graph.nn
  simp [Ideal.ofBits, Ideal.ieee, -EReal.coe_mul]; norm_num

theorem bcUp_apply (v : FVec Ideal S64 .f32) (b : Fin 64) :
    broadcastInDim S1x64 ![1] bcast_S64_S1x64_1 v (ix2 0 b) = v (ix1 b) := by
  unfold broadcastInDim
  exact congrArg v (funext fun | ⟨0, _⟩ => rfl)

theorem overRows_apply (v : FVec Ideal S64 .f32) (a : Fin 50000) (b : Fin 64) : overRows v (ix2 a b) = v (ix1 b) := by
  unfold overRows
  rw [broadcastInDim_oneRow_apply, bcUp_apply]

-- A column sum from the constant zero is the plain sum over the 50000 rows.
theorem colSum_apply (x : FVec Ideal S50000x64 .f32) (j : Fin 64) : colSum x (ix1 j) = ∑ i : Fin 50000, x (ix2 i j) := by
  unfold colSum zeroC
  rw [hostReduceAdd_apply, Ideal.hostReduceAdd_single reducesTo_S50000x64_S64_d0 (by decide), constant_apply,
    Ideal.ofBits_zero_f32, zero_add]
  refine Finset.sum_congr rfl (fun k _ => congrArg x (funext fun a => ?_))
  match a with
  | ⟨0, _⟩ => exact Fin.ext rfl
  | ⟨1, _⟩ => exact Fin.ext rfl

theorem meanOf_apply (hv : FVec Ideal S50000x64 .f32) (j : Fin 64) :
    meanOf hv (ix1 j) = Cert.Spec.mean Cert.Graph.nn (Cert.Spec.mat hv) j := by
  unfold meanOf
  rw [hostDivf_apply, colSum_apply]
  rfl

theorem count_apply : count ix0 = Cert.Graph.nn := by
  show Ideal.ofBits .f32 0x47435000#32 - (((0#32 : BitVec 32).toInt : ℝ) : EReal) = _
  rw [show (0#32 : BitVec 32).toInt = 0 from rfl, Int.cast_zero, EReal.coe_zero, sub_zero]
  rfl

theorem centred_apply (hv : FVec Ideal S50000x64 .f32) (a : Fin 50000) (b : Fin 64) :
    centred hv (ix2 a b) = hv (ix2 a b) - Cert.Spec.mean Cert.Graph.nn (Cert.Spec.mat hv) b := by
  unfold centred
  rw [subf_apply, broadcastInDim_oneRow_apply, hostDivf_apply, bcUp_apply, colSum_apply]
  rfl

-- The guard of the variance holds: the count is the real number 50000, which is positive.
theorem guard_holds : FloatOps.cmpf (F := Ideal) (φ := .f32) .ogt Cert.Graph.nn 0 = 1#1 := by
  show Ideal.cmp .ogt Cert.Graph.nn 0 = 1#1
  unfold Ideal.cmp
  rw [nn_eq]
  have h : (0 : EReal) < ((50000 : ℝ) : EReal) := by exact_mod_cast (by norm_num : (0 : ℝ) < 50000)
  simp only [h, decide_true]
  rfl

theorem varOf_apply (hv : FVec Ideal S50000x64 .f32) (j : Fin 64) :
    varOf hv (ix1 j) = Cert.Spec.varR Cert.Graph.nn (Cert.Spec.mat hv) j := by
  unfold varOf zeroC
  rw [select_apply, broadcastInDim_scalar_apply, cmpf_apply, count_apply, constant_apply, Ideal.ofBits_zero_f32,
    guard_holds, select_one, hostDivf_apply, colSum_apply, broadcastInDim_scalar_apply, count_apply]
  unfold Cert.Spec.varR
  refine congrArg (fun s => Ideal.div s Cert.Graph.nn) (Finset.sum_congr rfl fun i _ => ?_)
  rw [mulf_apply, centred_apply]
  rfl

theorem invstdOf_apply (hv : FVec Ideal S50000x64 .f32) (j : Fin 64) :
    invstdOf hv (ix1 j) = Cert.Spec.invstd (Cert.Spec.varR Cert.Graph.nn (Cert.Spec.mat hv)) Cert.Graph.eps j := by
  show Ideal.rsqrt (varOf hv (ix1 j) + _) = _
  rw [varOf_apply]
  rfl

theorem tail_eq (hv : FVec Ideal S50000x64 .f32) (gamma beta : FVec Ideal S64 .f32) :
    tail hv gamma beta
      = Cert.Spec.unmat (Cert.Spec.out (Cert.Spec.varR Cert.Graph.nn (Cert.Spec.mat hv)) Cert.Graph.nn Cert.Graph.eps
          (Cert.Spec.mat hv) (Cert.Spec.row gamma) (Cert.Spec.row beta)) := by
  refine ext2 fun a b => ?_
  show max (((hv (ix2 a b) - overRows (meanOf hv) (ix2 a b)) * overRows (invstdOf hv) (ix2 a b)) * overRows gamma (ix2 a b)
    + overRows beta (ix2 a b)) (Ideal.ofBits .f32 0x00000000#32) = _
  rw [overRows_apply, overRows_apply, overRows_apply, overRows_apply, Ideal.ofBits_zero_f32, meanOf_apply, invstdOf_apply]
  rfl

end Cert.ReferenceIdeal.Val

end
-- ==== Proof.ROpen.lean ====
import proofs.«406417_j47201690583086_1_alg».proof.Proof.RefRun
import proofs.«406417_j47201690583086_1_alg».proof.Proof.RStats

noncomputable section

namespace Cert.ReferenceIdeal.Val

open Cert.ReferenceIdeal Cert.ReferenceIdeal.Gen Cert.ReferenceIdeal.Hand Idealize.ShloMosaic Idealize.ShloMosaic.TcCoe Idealize.SL.Sem Idealize.ShloMosaic.StableHlo
open Cert.Graph (srcRow dstRow takeRows aggOf)

variable [Cert.KernelIdeal.Facts₀]

theorem after_app {F : FTy → Type} : ∀ (l₁ l₂ : List (HloOp τ sig (Elt F))) (V : Valuation τ sig (Elt F)),
    after (l₁ ++ l₂) V = after l₂ (after l₁ V)
  | [], _, _ => rfl
  | _ :: l₁, l₂, _ => after_app l₁ l₂ _

def projT (x : FVec Ideal S50000x64 .f32) (W : FVec Ideal S64x64 .f32) (b : FVec Ideal S64 .f32) : FVec Ideal S50000x64 .f32 :=
  addf (Host.dotGeneral dot_S50000x64_S64x64_S50000x64_1_0_0_1_n_n none x W) (overRows b)

def oneE : FVec Ideal S800000x64 .f32 :=
  broadcastInDim S800000x64 ![] bcast_S_S800000x64 (constant (F := Ideal) S_ .f32 0x3F800000#32)

def gateT (kd qs vs : FVec Ideal S800000x64 .f32) : FVec Ideal S800000x64 .f32 :=
  mulf (Host.divf oneE (addf oneE (Host.exp (Host.negf (addf kd qs))))) vs

-- h = agg + bias as one term of the nine arguments the first stretch reads.
def front (x : FVec Ideal S50000x64 .f32) (ei : IVec S2x800000 32) (Wk : FVec Ideal S64x64 .f32) (bk : FVec Ideal S64 .f32)
    (Wq : FVec Ideal S64x64 .f32) (bq : FVec Ideal S64 .f32) (Wv : FVec Ideal S64x64 .f32) (bv : FVec Ideal S64 .f32)
    (bias : FVec Ideal S64 .f32) : FVec Ideal S50000x64 .f32 :=
  addf (aggOf (dstRow ei) (gateT (takeRows (projT x Wk bk) (dstRow ei)) (takeRows (projT x Wq bq) (srcRow ei))
    (takeRows (projT x Wv bv) (srcRow ei)))) (overRows bias)

theorem front_open (V : Valuation τ sig (Elt Ideal)) :
    after (ops0 (F := Ideal)) V (Proc.devRef .tc main_v50)
      = front (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  after_results_simp
  rfl

theorem tail_open (W : Valuation τ sig (Elt Ideal)) :
    after (ops1 (F := Ideal)) W (Proc.devRef .tc main_v70)
      = tail (W (Proc.devRef .tc main_v50)) (W (Proc.devRef .tc main_arg9)) (W (Proc.devRef .tc main_arg10)) := by
  after_results_simp
  rfl

theorem refOut_eq (m : (ℓ : Loc nD τ sig) → Buf (Elt Ideal) ℓ) (c : Dev nD) :
    refOut (F := Ideal) m c
      = tail (front (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)))
          (m ((c.tc : Thread nD τ).loc main_arg9)) (m ((c.tc : Thread nD τ).loc main_arg10)) := by
  unfold refOut
  rw [after_app, tail_open, front_open, keep0 _ main_arg9, keep0 _ main_arg10]

end Cert.ReferenceIdeal.Val

end
-- ==== Proof.RVal.lean ====
import proofs.«406417_j47201690583086_1_alg».proof.Proof.ROpen
import Idealize.ShloMosaic.Lib.IdealHost
import Idealize.ShloMosaic.Lib.StackMember

noncomputable section

namespace Cert.ReferenceIdeal.Val

open Cert.ReferenceIdeal Cert.ReferenceIdeal.Hand Cert.Spec
open Idealize.ShloMosaic Idealize.SL.Sem Idealize.ShloMosaic.ValueIdx

variable [Cert.KernelIdeal.Facts₀]

theorem hb_eq (agg : FVec Ideal S50000x64 .f32) (bias : FVec Ideal S64 .f32) :
    addf agg (overRows bias) = unmat (hb (mat agg) (row bias)) := by
  refine ext2 fun p q => ?_
  rw [addf_apply, overRows_apply]
  rfl

-- A product's entry is the sum over the 64 contracted coordinates.
theorem projT_eq (x : FVec Ideal S50000x64 .f32) (W : FVec Ideal S64x64 .f32) (b : FVec Ideal S64 .f32) :
    projT x W b = Cert.Graph.projOf x W b := by
  refine ext2 fun p q => ?_
  unfold projT
  rw [addf_apply, overRows_apply]
  exact congrArg (· + b (ix1 q)) (StackMember.dotGeneral_plain_apply (m := 50000) (n := 64) (k := 64) none x W p q)

-- 1/(1 + exp(−(k + q))) is the logistic function of k + q: the literal 0x3F800000 is one.
theorem gateT_eq (kd qs vs : FVec Ideal S800000x64 .f32) : gateT kd qs vs = unmat (gate (mat kd) (mat qs) (mat vs)) := by
  refine ext2 fun p q => ?_
  show Ideal.div (Ideal.ofBits .f32 0x3F800000#32) (Ideal.ofBits .f32 0x3F800000#32 + Ideal.exp (-(kd _ + qs _))) * vs _ = _
  rw [Ideal.ofBits_one_f32]
  rfl

theorem ref_value (m : (ℓ : Loc nD τ sig) → Buf (Elt Ideal) ℓ) (c : Dev nD) :
    refOut (F := Ideal) m c
      = Cert.Spec.unmat (Cert.Spec.out
          (Cert.Spec.varR Cert.Graph.nn (Cert.Graph.hOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))))
          Cert.Graph.nn Cert.Graph.eps
          (Cert.Graph.hOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)))
          (Cert.Spec.row (m ((c.tc : Thread nD τ).loc main_arg9))) (Cert.Spec.row (m ((c.tc : Thread nD τ).loc main_arg10)))) := by
  rw [refOut_eq, tail_eq]
  unfold front
  rw [projT_eq, projT_eq, projT_eq, gateT_eq, hb_eq]
  rfl

end Cert.ReferenceIdeal.Val

end
-- ==== Proof.PreFacts.lean ====
import proofs.«406417_j47201690583086_1_alg».proof.Pre_finite_inputs
import proofs.«406417_j47201690583086_1_alg».proof.Proof.Gen.Pre_finite_inputs
import proofs.«406417_j47201690583086_1_alg».proof.Proof.Spec
import Idealize.ShloMosaic.Lib.ReduceAll
import Idealize.ShloMosaic.Lib.ValueIdx
import Idealize.ShloMosaic.PureOps.Ideal

noncomputable section

namespace Cert.PreFacts

open Idealize.ShloMosaic Cert.Pre_finite_inputs Cert.Spec

variable [Facts]

instance : Subsingleton S_.Idx := ⟨fun a b => funext fun d => d.elim0⟩

-- max x (−x) < ⊤ fails at both infinities, so an array passing the test |x| < +∞ everywhere holds real numbers.
theorem real_of_test {s : Shape} {axes : List (Fin s.rank)} {x : FVec Ideal s .f32}
    {hb : S_.BroadcastsInDim s (![] : Fin 0 → Fin s.rank)} {hr : s.ReducesTo axes S_} {hu : 0 < S_.numel} {init : IVec S_ 1} {j : S_.Idx}
    (e : Host.reduce IntOp.andi (cmpf .olt (Host.absf x) (broadcastInDim s ![] hb (constant S_ .f32 0x7F800000#32))) init hr hu j = 1#1)
    (i : s.Idx) : IsReal (x i) := by
  have h : Ideal.cmp .olt (max (x i) (-(x i))) (Ideal.ofBits .f32 0x7F800000#32) = 1#1 :=
    Host.reduce_andi_all _ init hr hu j e i
  generalize x i = y at h
  induction y using EReal.rec with
  | coe r => exact ⟨r, rfl⟩
  | _ => simp [Ideal.cmp, Ideal.ofBits, Ideal.ieee] at h

abbrev row0 (a1 : IVec S2x800000 32) : IVec S800000 32 :=
  shapeCast S800000 (extractStridedSlice S1x800000 ![0, 0] a1 Facts.slices_S2x800000_S1x800000_0_0) Facts.shapeCasts_S1x800000_S800000

-- The precondition is a chain of "and"s of eleven whole-array tests; it is 1 only if every link is.
theorem of_pre {a0 : FVec Ideal S50000x64 .f32} {a1 : IVec S2x800000 32} {a2 a4 a6 : FVec Ideal S64x64 .f32}
    {a3 a5 a7 a8 a9 a10 : FVec Ideal S64 .f32}
    (h : Cert.Pre_finite_inputs.fn (F := Ideal) a0 a1 a2 a3 a4 a5 a6 a7 a8 a9 a10 = fun _ => 1#1) :
    ((∀ i, IsReal (a0 i)) ∧ (∀ i, IsReal (a2 i)) ∧ (∀ i, IsReal (a3 i)) ∧ (∀ i, IsReal (a4 i)) ∧ (∀ i, IsReal (a5 i))
      ∧ (∀ i, IsReal (a6 i)) ∧ (∀ i, IsReal (a7 i)) ∧ ∀ i, IsReal (a8 i))
    ∧ ∀ e, (-50000 : ℤ) ≤ (row0 a1 e).toInt ∧ (row0 a1 e).toInt < 50000 := by
  obtain ⟨h48, h58⟩ := IntOp.andi_eq_one.1 (congrFun h ValueIdx.ix0)
  obtain ⟨h43, -⟩ := IntOp.andi_eq_one.1 h48
  obtain ⟨h38, -⟩ := IntOp.andi_eq_one.1 h43
  obtain ⟨h33, h37⟩ := IntOp.andi_eq_one.1 h38
  obtain ⟨h28, h32⟩ := IntOp.andi_eq_one.1 h33
  obtain ⟨h23, h27⟩ := IntOp.andi_eq_one.1 h28
  obtain ⟨h18, h22⟩ := IntOp.andi_eq_one.1 h23
  obtain ⟨h13, h17⟩ := IntOp.andi_eq_one.1 h18
  obtain ⟨h8, h12⟩ := IntOp.andi_eq_one.1 h13
  obtain ⟨h3, h7⟩ := IntOp.andi_eq_one.1 h8
  refine ⟨⟨real_of_test h3, real_of_test h7, real_of_test h12, real_of_test h17, real_of_test h22, real_of_test h27,
    real_of_test h32, real_of_test h37⟩, fun e => ?_⟩
  obtain ⟨g1, g2⟩ := IntOp.andi_eq_one.1 (Host.reduce_andi_all _ _ _ _ _ h58 e)
  exact ⟨IntOp.cmpi_sge.1 g1, IntOp.cmpi_slt.1 g2⟩

end Cert.PreFacts

end
-- ==== Proof.HReal.lean ====
import proofs.«406417_j47201690583086_1_alg».proof.Proof.Spec
import proofs.«406417_j47201690583086_1_alg».proof.Proof.KGraph
import Idealize.ShloMosaic.PureOps.Ideal.Laws
import Mathlib.Data.EReal.Basic
import Mathlib.Algebra.BigOperators.Group.Finset.Basic

noncomputable section

namespace Cert.Spec.IsReal

open Idealize.ShloMosaic

theorem coe (r : ℝ) : IsReal r := ⟨r, rfl⟩

theorem add {x y : EReal} (hx : IsReal x) (hy : IsReal y) : IsReal (x + y) := by
  obtain ⟨a, rfl⟩ := hx; obtain ⟨b, rfl⟩ := hy; exact coe (a + b)

theorem mul {x y : EReal} (hx : IsReal x) (hy : IsReal y) : IsReal (x * y) := by
  obtain ⟨a, rfl⟩ := hx; obtain ⟨b, rfl⟩ := hy; exact coe (a * b)

theorem logistic {x : EReal} (hx : IsReal x) : IsReal (Ideal.logistic x) := by
  obtain ⟨a, rfl⟩ := hx; exact ⟨_, Ideal.logistic_coe a⟩

theorem sum {ι : Type*} (s : Finset ι) (f : ι → EReal) (hf : ∀ i ∈ s, IsReal (f i)) : IsReal (∑ i ∈ s, f i) :=
  Finset.sum_induction f IsReal (fun _ _ => add) (coe 0) hf

end Cert.Spec.IsReal

namespace Cert.Graph

open Idealize.ShloMosaic Cert.Spec Cert.KernelIdeal

variable [Facts₀]

-- Each stage is built from sums, products and the logistic of entries of the stage before; a gathered row is a row of its table.
theorem hOf_real {feature : FVec Ideal S50000x64 .f32} {ei : IVec S2x800000 32} {Wk Wq Wv : FVec Ideal S64x64 .f32}
    {bk bq bv bias : FVec Ideal S64 .f32} (hf : ∀ i, IsReal (feature i))
    (hWk : ∀ i, IsReal (Wk i)) (hbk : ∀ i, IsReal (bk i)) (hWq : ∀ i, IsReal (Wq i)) (hbq : ∀ i, IsReal (bq i))
    (hWv : ∀ i, IsReal (Wv i)) (hbv : ∀ i, IsReal (bv i)) (hbias : ∀ i, IsReal (bias i)) (i : Fin 50000) (j : Fin 64) :
    IsReal (hOf feature ei Wk bk Wq bq Wv bv bias i j) := by
  have P : ∀ W b, (∀ i, IsReal (W i)) → (∀ i, IsReal (b i)) → ∀ r i, IsReal (takeRows (projOf feature W b) r i) :=
    fun W b hW hb r i => .add (.sum _ _ fun k _ => .mul (hf _) (hW _)) (hb _)
  refine .add ?_ (hbias _)
  show IsReal (aggOf _ _ _)
  rw [aggOf_apply, Ideal.ofBits_zero_f32]
  exact .add (.coe 0) (.sum _ _ fun e _ => .mul (.logistic (.add (P _ _ hWk hbk _ _) (P _ _ hWq hbq _ _))) (P _ _ hWv hbv _ _))

end Cert.Graph

end
-- ==== Proof.Algebra.lean ====
import proofs.«406417_j47201690583086_1_alg».proof.Proof.Spec
import Mathlib.Data.EReal.Inv
import Mathlib.Algebra.BigOperators.Ring.Finset
import Mathlib.Tactic.FieldSimp
import Mathlib.Tactic.Ring
import Mathlib.Tactic.NormNum

noncomputable section

namespace Cert.Spec

open Idealize.ShloMosaic

theorem coe_sum {ι : Type*} (s : Finset ι) (g : ι → ℝ) :
    ((∑ i ∈ s, g i : ℝ) : EReal) = ∑ i ∈ s, (g i : EReal) :=
  map_sum (⟨⟨(↑), EReal.coe_zero⟩, EReal.coe_add⟩ : ℝ →+ EReal) g s

-- Σ(x − μ)² = Σx² − 2μΣx + Nμ², and Σx = Nμ.
theorem real_var {ι : Type*} (s : Finset ι) (x : ι → ℝ) (N μ : ℝ) (hN : N ≠ 0) (hc : (s.card : ℝ) = N)
    (hμ : μ = (∑ k ∈ s, x k) * (1 / N)) :
    (∑ i ∈ s, (x i - μ) * (x i - μ)) * (1 / N) = (∑ i ∈ s, x i * x i) * (1 / N) - μ * μ := by
  simp only [hμ, sub_mul, mul_sub, Finset.sum_sub_distrib, ← Finset.sum_mul, ← Finset.mul_sum, Finset.sum_const,
    nsmul_eq_mul, hc]
  field_simp
  ring

-- Over real entries the extended-real arithmetic is the real arithmetic, coercion by coercion.
theorem varK_eq_varR (nn : EReal) (hnn : nn = ((50000 : ℝ) : EReal)) (h : Mat 50000 64)
    (hfin : ∀ i j, IsReal (h i j)) : varK nn h = varR nn h := by
  choose g hg using hfin
  obtain rfl : h = fun i j => (g i j : EReal) := funext₂ hg
  funext j
  have h50 : (50000 : ℝ) ≠ 0 := by norm_num
  simp only [hnn, varK, varR, mean, s1, s2, Ideal.div_coe h50, ← EReal.coe_mul, ← coe_sum, ← EReal.coe_sub]
  exact congrArg _ (real_var Finset.univ (fun i => g i j) 50000 _ h50 (by simp) rfl).symm

end Cert.Spec

end
-- ==== Proof.Claims.lean ====
import proofs.«406417_j47201690583086_1_alg».proof.Defs
import proofs.«406417_j47201690583086_1_alg».proof.Proof.Gen.Kernel
import proofs.«406417_j47201690583086_1_alg».proof.Proof.Gen.KernelIdeal
import proofs.«406417_j47201690583086_1_alg».proof.Proof.Gen.ReferenceIdeal
import proofs.«406417_j47201690583086_1_alg».proof.Proof.Gen.Pre_finite_inputs
import proofs.«406417_j47201690583086_1_alg».proof.Proof.Frame
import proofs.«406417_j47201690583086_1_alg».proof.Proof.Bits.Frame
import proofs.«406417_j47201690583086_1_alg».proof.Proof.RefRun
import proofs.«406417_j47201690583086_1_alg».proof.Proof.KHost
import proofs.«406417_j47201690583086_1_alg».proof.Proof.RVal
import proofs.«406417_j47201690583086_1_alg».proof.Proof.RStats
import proofs.«406417_j47201690583086_1_alg».proof.Proof.PreFacts
import proofs.«406417_j47201690583086_1_alg».proof.Proof.HReal
import proofs.«406417_j47201690583086_1_alg».proof.Proof.Algebra

noncomputable section

namespace Cert.Proof.Claims

open Idealize.ShloMosaic Idealize.SL.Sem

theorem frame_k : Cert.frame_Kernel := fun m ρ _ => Cert.Kernel.Hand.frame_args (F := Bits) m ρ

theorem frame_ki : Cert.frame_KernelIdeal := fun m ρ _ => Cert.KernelIdeal.Hand.frame_args (F := Ideal) m ρ

theorem frame_ri : Cert.frame_ReferenceIdeal := fun m ρ _ =>
  (θ_run Cert.ReferenceIdeal.defs _ _).mono (fun _ h c => (h c).2) (Cert.ReferenceIdeal.Hand.run (F := Ideal) m ρ)

theorem preserves : Cert.preserves_Kernel_KernelIdeal := trivial

-- Both results are one function of h = agg + bias up to the spelling of the variance, E[h²] − μ² or E[(h − μ)²]: equal where h is real.
theorem algebraic : Cert.algebraic_KernelIdeal_ReferenceIdeal := by
  intro m ρ m' ρ' hpre hagree
  refine ⟨_, Cert.KernelIdeal.Hand.run_value m ρ, (θ_run Cert.ReferenceIdeal.defs _ _).mono
    (fun _ h c => ⟨(h c).1.trans ?_, (h c).2⟩) (Cert.ReferenceIdeal.Hand.run (F := Ideal) m' ρ')⟩
  obtain ⟨e0, e1, e2, e3, e4, e5, e6, e7, e8, e9, e10⟩ := hagree c
  obtain ⟨⟨r0, r2, r3, r4, r5, r6, r7, r8⟩, hr⟩ := Cert.PreFacts.of_pre (hpre c)
  rw [Cert.ReferenceIdeal.Val.ref_value m' c, Cert.KernelIdeal.Val.kernel_value m c hr,
    e0, e1, e2, e3, e4, e5, e6, e7, e8, e9, e10,
    Cert.Spec.varK_eq_varR _ Cert.ReferenceIdeal.Val.nn_eq _ (Cert.Graph.hOf_real r0 r2 r3 r4 r5 r6 r7 r8)]

end Cert.Proof.Claims

end
-- ==== Proof.lean ====
import proofs.«406417_j47201690583086_1_alg».proof.Proof.Claims

namespace Cert.Proof

-- The five claims under the four generated witnesses of the programs' stated side conditions.
theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof
